-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S64x128 : Shape := ⟨2, ![64, 128]⟩
abbrev S64 : Shape := ⟨1, ![64]⟩
abbrev S64x64 : Shape := ⟨2, ![64, 64]⟩
abbrev S128x144 : Shape := ⟨2, ![128, 144]⟩
abbrev S128 : Shape := ⟨1, ![128]⟩
abbrev S2x64 : Shape := ⟨2, ![2, 64]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x144 : S_.BroadcastsInDim S128x144 (![] : Fin 0 → Fin S128x144.rank)
  reducesTo_S128x144_S_d0_1 : S128x144.ReducesTo [0, 1] S_
  bcast_S_S128 : S_.BroadcastsInDim S128 (![] : Fin 0 → Fin S128.rank)
  reducesTo_S128_S_d0 : S128.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg1 : IVec S2x800000 32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_c_34 : IVec S_ 32 := constantI S_ 32 0#32
  let main_v89 : IVec S2x800000 32 := broadcastInDim S2x800000 ![] bcast_S_S2x800000 main_c_34
  let main_v90 : IVec S2x800000 1 := cmpi .sge main_arg1 main_v89
  let main_c_35 : IVec S_ 1 := constantI S_ 1 1#1
  let main_v91 : IVec S_ 1 := (fun x v => Host.reduce IntOp.andi x v reducesTo_S2x800000_S_d0_1 h_S_) main_v90 main_c_35
  let main_v92 : IVec S_ 1 := andi main_v88 main_v91
  let main_c_36 : IVec S_ 32 := constantI S_ 32 50000#32
  let main_v93 : IVec S2x800000 32 := broadcastInDim S2x800000 ![] bcast_S_S2x800000 main_c_36
  let main_v94 : IVec S2x800000 1 := cmpi .slt main_arg1 main_v93
  let main_c_37 : IVec S_ 1 := constantI S_ 1 1#1
  let main_v95 : IVec S_ 1 := (fun x v => Host.reduce IntOp.andi x v reducesTo_S2x800000_S_d0_1 h_S_) main_v94 main_c_37
  let main_v96 : IVec S_ 1 := andi main_v92 main_v95
  main_v96

def fn_part4 {F : FTy → Type} [FloatOps F] (main_arg1 : IVec S2x800000 32) (main_arg15 : FVec F S64x128 .f32) (main_arg16 : FVec F S64 .f32) (main_arg17 : FVec F S2x64 .f32) (main_arg18 : FVec F S2 .f32) (main_v63 : IVec S_ 1) (main_v67 : IVec S_ 1) : IVec S_ 1 :=
  let main_v68 : IVec S_ 1 := andi main_v63 main_v67
  let main_v69 : FVec F S64x128 .f32 := Host.absf main_arg15
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S2x64 .f32 := Host.absf main_arg17
  let main_cst_30 : FVec F S_ .f32 := constant S_ .f32 0x7F800000#32
  let main_v80 : FVec F S2x64 .f32 := broadcastInDim S2x64 ![] bcast_S_S2x64 main_cst_30
  let main_v81 : IVec S2x64 1 := cmpf .olt main_v79 main_v80
  let main_c_31 : IVec S_ 1 := constantI S_ 1 1#1
  let main_v82 : IVec S_ 1 := (fun x v => Host.reduce IntOp.andi x v reducesTo_S2x64_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x800000 32) (main_arg12 : FVec F S64 .f32) (main_arg13 : FVec F S128x144 .f32) (main_arg14 : FVec F S128 .f32) (main_arg15 : FVec F S64x128 .f32) (main_arg16 : FVec F S64 .f32) (main_arg17 : FVec F S2x64 .f32) (main_arg18 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x144 .f32 := Host.absf main_arg13
  let main_cst_22 : FVec F S_ .f32 := constant S_ .f32 0x7F800000#32
  let main_v60 : FVec F S128x144 .f32 := broadcastInDim S128x144 ![] bcast_S_S128x144 main_cst_22
  let main_v61 : IVec S128x144 1 := cmpf .olt main_v59 main_v60
  let main_c_23 : IVec S_ 1 := constantI S_ 1 1#1
  let main_v62 : IVec S_ 1 := (fun x v => Host.reduce IntOp.andi x v reducesTo_S128x144_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x800000 32) (main_arg8 : FVec F S64x64 .f32) (main_arg9 : FVec F S64 .f32) (main_arg10 : FVec F S64x64 .f32) (main_arg11 : FVec F S64 .f32) (main_arg12 : FVec F S64 .f32) (main_arg13 : FVec F S128x144 .f32) (main_arg14 : FVec F S128 .f32) (main_arg15 : FVec F S64x128 .f32) (main_arg16 : FVec F S64 .f32) (main_arg17 : FVec F S2x64 .f32) (main_arg18 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_arg16 main_arg17 main_arg18 main_v48 main_v49 main_v50

def fn_part1 {F : FTy → Type} [FloatOps F] (main_arg1 : IVec S2x800000 32) (main_arg5 : FVec F S64x128 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S128x144 .f32) (main_arg14 : FVec F S128 .f32) (main_arg15 : FVec F S64x128 .f32) (main_arg16 : FVec F S64 .f32) (main_arg17 : FVec F S2x64 .f32) (main_arg18 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : FVec F S800000x16 .f32) (main_arg3 : FVec F S64x128 .f32) (main_arg4 : FVec F S64 .f32) (main_arg5 : FVec F S64x128 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S128x144 .f32) (main_arg14 : FVec F S128 .f32) (main_arg15 : FVec F S64x128 .f32) (main_arg16 : FVec F S64 .f32) (main_arg17 : FVec F S2x64 .f32) (main_arg18 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S64x128 : Shape := ⟨2, ![64, 128]⟩
abbrev S64 : Shape := ⟨1, ![64]⟩
abbrev S64x64 : Shape := ⟨2, ![64, 64]⟩
abbrev S128x144 : Shape := ⟨2, ![128, 144]⟩
abbrev S128 : Shape := ⟨1, ![128]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S800000x144 : Shape := ⟨2, ![800000, 144]⟩
abbrev S144x128 : Shape := ⟨2, ![144, 128]⟩
abbrev S1x128 : Shape := ⟨2, ![1, 128]⟩
abbrev S64x2 : Shape := ⟨2, ![64, 2]⟩
abbrev S4000x144 : Shape := ⟨2, ![4000, 144]⟩
abbrev S4000x128 : Shape := ⟨2, ![4000, 128]⟩
abbrev S4000x64 : Shape := ⟨2, ![4000, 64]⟩
abbrev S800000x2 : Shape := ⟨2, ![800000, 2]⟩

abbrev nBuf : Space → Nat
  | .hbm => 196
  | .vmem => 44
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S64x128, .f32⟩
  | 4 => ⟨S64, .f32⟩
  | 5 => ⟨S64x128, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S128x144, .f32⟩
  | 14 => ⟨S128, .f32⟩
  | 15 => ⟨S64x128, .f32⟩
  | 16 => ⟨S64, .f32⟩
  | 17 => ⟨S2x64, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x128, .f32⟩
  | 42 => ⟨S800000x128, .i1⟩
  | 43 => ⟨S_, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S_, .f32⟩
  | 51 => ⟨S800000, .f32⟩
  | 52 => ⟨S_, .f32⟩
  | 53 => ⟨S50000, .f32⟩
  | 54 => ⟨S800000x1, .i32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S128x64, .f32⟩
  | 63 => ⟨S128x64, .f32⟩
  | 64 => ⟨S1x64, .f32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S50000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S1x64, .f32⟩
  | 82 => ⟨S1x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x64, .f32⟩
  | 103 => ⟨S800000x64, .i1⟩
  | 104 => ⟨S_, .f32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S50000x64, .f32⟩
  | 112 => ⟨S50000x64, .f32⟩
  | 113 => ⟨S64x64, .f32⟩
  | 114 => ⟨S64x64, .f32⟩
  | 115 => ⟨S1x64, .f32⟩
  | 116 => ⟨S50000x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S50000x64, .f32⟩
  | 124 => ⟨S50000x64, .f32⟩
  | 125 => ⟨S50000x64, .f32⟩
  | 126 => ⟨S_, .f32⟩
  | 127 => ⟨S64, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S1x64, .f32⟩
  | 5 => ⟨S1x64, .f32⟩
  | 6 => ⟨S50000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S1, .i32⟩
  | 16 => ⟨S_, .i32⟩
  | 17 => ⟨S800000x1, .i32⟩
  | 18 => ⟨S800000x1, .i1⟩
  | 19 => ⟨S1x1, .i32⟩
  | 20 => ⟨S800000x1, .i32⟩
  | 21 => ⟨S800000x1, .i1⟩
  | 22 => ⟨S800000x1, .i1⟩
  | 23 => ⟨S_, .i1⟩
  | 24 => ⟨S800000, .i1⟩
  | 25 => ⟨S800000x64, .f32⟩
  | 26 => ⟨S800000x64, .i1⟩
  | 27 => ⟨S_, .f32⟩
  | 28 => ⟨S800000x64, .f32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S1, .i32⟩
  | 39 => ⟨S_, .i32⟩
  | 40 => ⟨S800000x1, .i32⟩
  | 41 => ⟨S800000x1, .i1⟩
  | 42 => ⟨S1x1, .i32⟩
  | 43 => ⟨S800000x1, .i32⟩
  | 44 => ⟨S800000x1, .i1⟩
  | 45 => ⟨S800000x1, .i1⟩
  | 46 => ⟨S_, .i1⟩
  | 47 => ⟨S800000, .i1⟩
  | 48 => ⟨S800000x64, .f32⟩
  | 49 => ⟨S800000x64, .i1⟩
  | 50 => ⟨S_, .f32⟩
  | 51 => ⟨S800000x64, .f32⟩
  | 52 => ⟨S800000x64, .f32⟩
  | 53 => ⟨S800000x144, .f32⟩
  | 54 => ⟨S144x128, .f32⟩
  | 55 => ⟨S1x128, .f32⟩
  | 56 => ⟨S128x64, .f32⟩
  | 57 => ⟨S1x64, .f32⟩
  | 58 => ⟨S64x2, .f32⟩
  | 59 => ⟨S_, .i32⟩
  | 60 => ⟨S_, .f32⟩
  | 61 => ⟨S64x128, .f32⟩
  | 62 => ⟨S_, .i32⟩
  | 63 => ⟨S_, .f32⟩
  | 64 => ⟨S128, .f32⟩
  | 65 => ⟨S1x128, .f32⟩
  | 66 => ⟨S800000x128, .f32⟩
  | 67 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S4000x144, .f32⟩
  | .local _ .vmem, ⟨35, _⟩ => ⟨S4000x144, .f32⟩
  | .local _ .vmem, ⟨36, _⟩ => ⟨S144x128, .f32⟩
  | .local _ .vmem, ⟨37, _⟩ => ⟨S1x128, .f32⟩
  | .local _ .vmem, ⟨38, _⟩ => ⟨S128x64, .f32⟩
  | .local _ .vmem, ⟨39, _⟩ => ⟨S1x64, .f32⟩
  | .local _ .vmem, ⟨40, _⟩ => ⟨S64x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_cst : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst_0 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_2 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_3 : Ref sig .tc := ⟨.hbm, 66, rfl⟩
abbrev main_v21 : Ref sig .tc := ⟨.hbm, 67, rfl⟩
abbrev main_cst_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_v28 : Ref sig .tc := ⟨.hbm, 76, rfl⟩
abbrev main_cst_6 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v35 : Ref sig .tc := ⟨.hbm, 106, rfl⟩
abbrev main_cst_7 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_cst_8 : Ref sig .tc := ⟨.hbm, 117, rfl⟩
abbrev main_v45 : Ref sig .tc := ⟨.hbm, 118, rfl⟩
abbrev main_cst_9 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_cst_10 : Ref sig .tc := ⟨.hbm, 126, rfl⟩
abbrev main_v52 : Ref sig .tc := ⟨.hbm, 127, rfl⟩
abbrev main_cst_11 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_call2_c : Ref sig .tc := ⟨.hbm, 135, rfl⟩
abbrev main_call2_v0 : Ref sig .tc := ⟨.hbm, 136, rfl⟩
abbrev main_call2_v1 : Ref sig .tc := ⟨.hbm, 137, rfl⟩
abbrev main_call2_c_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_c_1 : Ref sig .tc := ⟨.hbm, 143, rfl⟩
abbrev main_call2_c_2 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_c_3 : Ref sig .tc := ⟨.hbm, 151, rfl⟩
abbrev main_call2_v12 : Ref sig .tc := ⟨.hbm, 152, rfl⟩
abbrev main_call2_v13 : Ref sig .tc := ⟨.hbm, 153, rfl⟩
abbrev main_call2_v14 : Ref sig .tc := ⟨.hbm, 154, rfl⟩
abbrev main_call2_cst : Ref sig .tc := ⟨.hbm, 155, rfl⟩
abbrev main_call2_v15 : Ref sig .tc := ⟨.hbm, 156, rfl⟩
abbrev main_v59 : Ref sig .tc := ⟨.hbm, 157, rfl⟩
abbrev main_call3_c : Ref sig .tc := ⟨.hbm, 158, rfl⟩
abbrev main_call3_v0 : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_c_1 : Ref sig .tc := ⟨.hbm, 166, rfl⟩
abbrev main_call3_c_2 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_c_3 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_call3_cst : Ref sig .tc := ⟨.hbm, 178, rfl⟩
abbrev main_call3_v15 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_c : Ref sig .tc := ⟨.hbm, 187, rfl⟩
abbrev main_call4_v0 : Ref sig .tc := ⟨.hbm, 188, rfl⟩
abbrev main_v67 : Ref sig .tc := ⟨.hbm, 189, rfl⟩
abbrev main_c_12 : Ref sig .tc := ⟨.hbm, 190, rfl⟩
abbrev main_call5_v0 : Ref sig .tc := ⟨.hbm, 191, rfl⟩
abbrev main_v68 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x144 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S144x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S50000x64_S64_d0 : S50000x64.ReducesTo [0] S64
  bcast_S_S64 : S_.BroadcastsInDim S64 (![] : Fin 0 → Fin S64.rank)
  bcast_S1x64_S50000x64_0_1 : S1x64.BroadcastsInDim S50000x64 (![0, 1] : Fin 2 → Fin S50000x64.rank)
  shapeCasts_S5000x64_S5000x64 : S5000x64.ShapeCasts S5000x64
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S800000x64_S800000x16_S800000x64_S800000x144_d1 : Shape.Concatenates [S800000x64, S800000x16, S800000x64] S800000x144 1
  transposes_S128x144_S144x128_1_0 : S128x144.Transposes [1, 0] S144x128
  shapeCasts_S128_S1x128 : S128.ShapeCasts S1x128
  transposes_S2x64_S64x2_1_0 : S2x64.Transposes [1, 0] S64x2
  pads_S64x2_S64x128_000_01260 : S64x2.Pads (![0, 0] : Fin 2 → Nat) ![0, 126] ![0, 0] S64x128
  pads_S2_S128_01260 : S2.Pads (![0] : Fin 1 → Nat) ![126] ![0] S128
  inb_S4000x144_S4000x144_0_0 : ∀ a, (![0, 0] : Fin 2 → Nat) a + S4000x144.size a ≤ S4000x144.size a
  h_S4000x144 : 0 < S4000x144.numel
  shapeCasts_S4000x144_S4000x144 : S4000x144.ShapeCasts S4000x144
  inb_S144x128_S144x128_0_0 : ∀ a, (![0, 0] : Fin 2 → Nat) a + S144x128.size a ≤ S144x128.size a
  h_S144x128 : 0 < S144x128.numel
  shapeCasts_S144x128_S144x128 : S144x128.ShapeCasts S144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S1x64_S4000x64 : S1x64.Broadcasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x128_S4000x128_0_0 : ∀ a, (![0, 0] : Fin 2 → Nat) a + S4000x128.size a ≤ S4000x128.size a
  h_S4000x128 : 0 < S4000x128.numel
  slices_S800000x128_S800000x2_0_0 : S800000x128.Slices ![0, 0] S800000x2
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S4000x144_S144x128_S4000x128_1_0_0_1_n_n_wf : DotDims.WF S4000x144 S144x128 S4000x128 [1] [0] [0] [1] [] []
  dot_S4000x128_S128x64_S4000x64_1_0_0_1_n_n_wf : DotDims.WF S4000x128 S128x64 S4000x64 [1] [0] [0] [1] [] []
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x144.size a ≤ S800000x144.size a
  hwx4_0 : ∀ i : grid4.Coords, EltTy.bits .f32 = 32 ∨ (Rect.block (s := S800000x144) S4000x144.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S144x128.size a ≤ S144x128.size a
  hwx4_1 : ∀ i : grid4.Coords, EltTy.bits .f32 = 32 ∨ (Rect.block (s := S144x128) S144x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x128.size a ≤ S64x128.size a
  hwx4_5 : ∀ i : grid4.Coords, EltTy.bits .f32 = 32 ∨ (Rect.block (s := S64x128) S64x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x128.size a ≤ S800000x128.size a
  hwx4_7 : ∀ i : grid4.Coords, EltTy.bits .f32 = 32 ∨ (Rect.block (s := S800000x128) S4000x128.size (cc4_transform_7 i) (hinb4_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S4000x144_S144x128_S4000x128_1_0_0_1_n_n : DotDims S4000x144 S144x128 S4000x128 where
  lhsContracting := [1]
  rhsContracting := [0]
  lhsNonContracting := [0]
  rhsNonContracting := [1]
  lhsBatch := []
  rhsBatch := []
  wf := dot_S4000x144_S144x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v61) S4000x144.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S144x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S64x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v70) S4000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S64x128 : Shape := ⟨2, ![64, 128]⟩
abbrev S64 : Shape := ⟨1, ![64]⟩
abbrev S64x64 : Shape := ⟨2, ![64, 64]⟩
abbrev S128x144 : Shape := ⟨2, ![128, 144]⟩
abbrev S128 : Shape := ⟨1, ![128]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩
abbrev S800000x144 : Shape := ⟨2, ![800000, 144]⟩
abbrev S144x128 : Shape := ⟨2, ![144, 128]⟩
abbrev S1x128 : Shape := ⟨2, ![1, 128]⟩
abbrev S64x2 : Shape := ⟨2, ![64, 2]⟩
abbrev S800000x2 : Shape := ⟨2, ![800000, 2]⟩
abbrev S1x2 : Shape := ⟨2, ![1, 2]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S64x128, .f32⟩
  | 4 => ⟨S64, .f32⟩
  | 5 => ⟨S64x128, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S128x144, .f32⟩
  | 14 => ⟨S128, .f32⟩
  | 15 => ⟨S64x128, .f32⟩
  | 16 => ⟨S64, .f32⟩
  | 17 => ⟨S2x64, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S128x64, .f32⟩
  | 49 => ⟨S50000x64, .f32⟩
  | 50 => ⟨S1x64, .f32⟩
  | 51 => ⟨S50000x64, .f32⟩
  | 52 => ⟨S50000x64, .f32⟩
  | 53 => ⟨S128x64, .f32⟩
  | 54 => ⟨S50000x64, .f32⟩
  | 55 => ⟨S50000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S50000x64, .f32⟩
  | 63 => ⟨S50000x64, .f32⟩
  | 64 => ⟨S50000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S64, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x64, .f32⟩
  | 113 => ⟨S50000x64, .f32⟩
  | 114 => ⟨S64x64, .f32⟩
  | 115 => ⟨S50000x64, .f32⟩
  | 116 => ⟨S1x64, .f32⟩
  | 117 => ⟨S50000x64, .f32⟩
  | 118 => ⟨S50000x64, .f32⟩
  | 119 => ⟨S64x64, .f32⟩
  | 120 => ⟨S50000x64, .f32⟩
  | 121 => ⟨S50000x64, .f32⟩
  | 122 => ⟨S_, .f32⟩
  | 123 => ⟨S64, .f32⟩
  | 124 => ⟨S_, .f32⟩
  | 125 => ⟨S64, .f32⟩
  | 126 => ⟨S64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S64, .f32⟩
  | 5 => ⟨S_, .f32⟩
  | 6 => ⟨S64, .f32⟩
  | 7 => ⟨S64, .f32⟩
  | 8 => ⟨S1x64, .f32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S64, .f32⟩
  | 16 => ⟨S64, .f32⟩
  | 17 => ⟨S64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x144, .f32⟩
  | 46 => ⟨S144x128, .f32⟩
  | 47 => ⟨S800000x128, .f32⟩
  | 48 => ⟨S1x128, .f32⟩
  | 49 => ⟨S800000x128, .f32⟩
  | 50 => ⟨S800000x128, .f32⟩
  | 51 => ⟨S_, .f32⟩
  | 52 => ⟨S800000x128, .f32⟩
  | 53 => ⟨S800000x128, .f32⟩
  | 54 => ⟨S128x64, .f32⟩
  | 55 => ⟨S800000x64, .f32⟩
  | 56 => ⟨S1x64, .f32⟩
  | 57 => ⟨S800000x64, .f32⟩
  | 58 => ⟨S800000x64, .f32⟩
  | 59 => ⟨S_, .f32⟩
  | 60 => ⟨S800000x64, .f32⟩
  | 61 => ⟨S800000x64, .f32⟩
  | 62 => ⟨S64x2, .f32⟩
  | 63 => ⟨S800000x2, .f32⟩
  | 64 => ⟨S1x2, .f32⟩
  | 65 => ⟨S800000x2, .f32⟩
  | 66 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call0_cst : Ref sig .tc := ⟨.hbm, 86, rfl⟩
abbrev main_call0_v0 : Ref sig .tc := ⟨.hbm, 87, rfl⟩
abbrev main_v56 : Ref sig .tc := ⟨.hbm, 88, rfl⟩
abbrev main_c_9 : Ref sig .tc := ⟨.hbm, 89, rfl⟩
abbrev main_v57 : Ref sig .tc := ⟨.hbm, 90, rfl⟩
abbrev main_v58 : Ref sig .tc := ⟨.hbm, 91, rfl⟩
abbrev main_c_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_cst_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call1_cst : Ref sig .tc := ⟨.hbm, 152, rfl⟩
abbrev main_call1_v0 : Ref sig .tc := ⟨.hbm, 153, rfl⟩
abbrev main_v109 : Ref sig .tc := ⟨.hbm, 154, rfl⟩
abbrev main_c_20 : Ref sig .tc := ⟨.hbm, 155, rfl⟩
abbrev main_v110 : Ref sig .tc := ⟨.hbm, 156, rfl⟩
abbrev main_v111 : Ref sig .tc := ⟨.hbm, 157, rfl⟩
abbrev main_c_21 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_22 : Ref sig .tc := ⟨.hbm, 164, rfl⟩
abbrev main_v117 : Ref sig .tc := ⟨.hbm, 165, rfl⟩
abbrev main_v118 : Ref sig .tc := ⟨.hbm, 166, rfl⟩
abbrev main_c_23 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_call2_cst : Ref sig .tc := ⟨.hbm, 179, rfl⟩
abbrev main_call2_v0 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_call3_cst : Ref sig .tc := ⟨.hbm, 187, rfl⟩
abbrev main_call3_v0 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  concatenates_S800000x64_S800000x16_S800000x64_S800000x144_d1 : Shape.Concatenates [S800000x64, S800000x16, S800000x64] S800000x144 1
  transposes_S128x144_S144x128_1_0 : S128x144.Transposes [1, 0] S144x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S2x64_S64x2_1_0 : S2x64.Transposes [1, 0] S64x2
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x144_S144x128_S800000x128_1_0_0_1_n_n_wf : DotDims.WF S800000x144 S144x128 S800000x128 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.K.R0.lean ====
import proofs.«431426_j58171037057327_1_alg».proof.Proof.Gen.Kernel.Launch
import proofs.«431426_j58171037057327_1_alg».proof.Proof.Gen.Kernel.Skeleton
import proofs.«431426_j58171037057327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 : Vec F S5000x128 .f32) (x1 : Vec F S5000x128 .f32) (x2 : Vec F S128x64 .f32) (x3 : Vec F S128x64 .f32) (x4 : Vec F S1x64 .f32) : Vec F S5000x64 .f32 :=
  View.canon [⟨Rect.unit (s := S5000x64) ![0, 0] S5000x64.size inb_S5000x64_S5000x64_0_0, k0_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S128x64) ![0, 0] S128x64.size inb_S128x64_S128x64_0_0)) (View.ld x3 (Rect.unit (s := S128x64) ![0, 0] S128x64.size inb_S128x64_S128x64_0_0)) (View.ld x4 (Rect.unit (s := S1x64) ![0, 0] S1x64.size inb_S1x64_S1x64_0_0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before_dat0 (c : Dev nD) (t : Fin cfg0.N) : ∀ (w : Fin cfg0.W) (d), w ≠ 5 → (dat0 V c).before w t d = (dat0 V c).after w t
  | 0, d, _ | 1, d, _ | 2, d, _ | 3, d, _ | 4, d, _ =>
    ((dat0 V c).before_in_eq_fetched _ rfl (fun _ => rfl) (fun _ _ _ => rfl) (fun _ => rfl) t d).trans rfl
  | 5, _, h => absurd rfl h

/-- The one store covers the whole output block, so the block reads as the stored value of the input blocks. -/
theorem body_obligation0 (c : Dev nD) : BodyObligation (dat0 (F := F) V c) (defs₀ (F := F)) Variants.none () Set.univ := fun t => by
  rewrite [bigSep_W0, bigSep_W0, show (dat0 V c).Φ t.succ = (dat0 V c).Φ t.castSucc from rfl,
    show (dat0 V c).owesAt () t.succ = (dat0 V c).owesAt () t.castSucc from rfl]
  simp (disch := decide) only [before_dat0 V c t]
  sl_whnfR [defs₀, Defs.onTc]
  sl_unfold [cc0__sage_dense_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out0_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after0_5 V c t).symm

end Cert.Kernel.Hand

end
-- ==== Proof.K.R1.lean ====
import proofs.«431426_j58171037057327_1_alg».proof.Proof.Gen.Kernel.Launch
import proofs.«431426_j58171037057327_1_alg».proof.Proof.Gen.Kernel.Skeleton
import proofs.«431426_j58171037057327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 : Vec F S5000x64 .f32) (x1 : Vec F S1x64 .f32) (x2 : Vec F S1x64 .f32) (x3 : Vec F S1x64 .f32) (x4 : Vec F S1x64 .f32) : Vec F S5000x64 .f32 :=
  View.canon [⟨Rect.unit (s := S5000x64) ![0, 0] S5000x64.size inb_S5000x64_S5000x64_0_0, k1_pay1 (View.ld x0 (Rect.unit (s := S5000x64) ![0, 0] S5000x64.size inb_S5000x64_S5000x64_0_0)) (View.ld x4 (Rect.unit (s := S1x64) ![0, 0] S1x64.size inb_S1x64_S1x64_0_0)) (View.ld x1 (Rect.unit (s := S1x64) ![0, 0] S1x64.size inb_S1x64_S1x64_0_0)) (View.ld x3 (Rect.unit (s := S1x64) ![0, 0] S1x64.size inb_S1x64_S1x64_0_0)) (View.ld x2 (Rect.unit (s := S1x64) ![0, 0] S1x64.size inb_S1x64_S1x64_0_0))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ (w : Fin cfg1.W) (d), w ≠ 5 → (dat1 V c).before w t d = (dat1 V c).after w t
  | 0, d, _ | 1, d, _ | 2, d, _ | 3, d, _ | 4, d, _ =>
    ((dat1 V c).before_in_eq_fetched _ rfl (fun _ => rfl) (fun _ _ _ => rfl) (fun _ => rfl) t d).trans rfl
  | 5, _, h => absurd rfl h

-- The one store covers the whole output block, so the block reads as the stored value of the input blocks.
theorem body_obligation1 (c : Dev nD) : BodyObligation (dat1 (F := F) V c) (defs₀ (F := F)) Variants.none () Set.univ := fun t => by
  rewrite [bigSep_W1, bigSep_W1, show (dat1 V c).Φ t.succ = (dat1 V c).Φ t.castSucc from rfl,
    show (dat1 V c).owesAt () t.succ = (dat1 V c).owesAt () t.castSucc from rfl]
  simp (disch := decide) only [before1 V c t]
  sl_whnfR [defs₀, Defs.onTc]
  sl_unfold [cc1__bn_relu_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out1_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after1_5 V c t).symm

end Cert.Kernel.Hand

end
-- ==== Proof.K.R2.lean ====
import proofs.«431426_j58171037057327_1_alg».proof.Proof.Gen.Kernel.Launch
import proofs.«431426_j58171037057327_1_alg».proof.Proof.Gen.Kernel.Skeleton
import proofs.«431426_j58171037057327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 : Vec F S5000x64 .f32) (x1 : Vec F S5000x64 .f32) (x2 : Vec F S64x64 .f32) (x3 : Vec F S64x64 .f32) (x4 : Vec F S1x64 .f32) : Vec F S5000x64 .f32 :=
  View.canon [⟨Rect.unit (s := S5000x64) ![0, 0] S5000x64.size inb_S5000x64_S5000x64_0_0, k2_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before_dat2 (c : Dev nD) (t : Fin cfg2.N) : ∀ (w : Fin cfg2.W) (d), w ≠ 5 → (dat2 V c).before w t d = (dat2 V c).after w t
  | 0, d, _ | 1, d, _ | 2, d, _ | 3, d, _ | 4, d, _ =>
    ((dat2 V c).before_in_eq_fetched _ rfl (fun _ => rfl) (fun _ _ _ => rfl) (fun _ => rfl) t d).trans rfl
  | 5, _, h => absurd rfl h

/-- The one store covers the whole output block, so the block reads as the stored value of the input blocks. -/
theorem body_obligation2 (c : Dev nD) : BodyObligation (dat2 (F := F) V c) (defs₀ (F := F)) Variants.none () Set.univ := fun t => by
  rewrite [bigSep_W2, bigSep_W2, show (dat2 V c).Φ t.succ = (dat2 V c).Φ t.castSucc from rfl,
    show (dat2 V c).owesAt () t.succ = (dat2 V c).owesAt () t.castSucc from rfl]
  simp (disch := decide) only [before_dat2 V c t]
  sl_whnfR [defs₀, Defs.onTc]
  sl_unfold [cc2__sage_dense_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out2_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after2_5 V c t).symm

end Cert.Kernel.Hand

end
-- ==== Proof.K.R3.lean ====
import proofs.«431426_j58171037057327_1_alg».proof.Proof.Gen.Kernel.Launch
import proofs.«431426_j58171037057327_1_alg».proof.Proof.Gen.Kernel.Skeleton
import proofs.«431426_j58171037057327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_5 (x0 : Vec F S5000x64 .f32) (x1 : Vec F S1x64 .f32) (x2 : Vec F S1x64 .f32) (x3 : Vec F S1x64 .f32) (x4 : Vec F S1x64 .f32) : Vec F S5000x64 .f32 :=
  View.canon [⟨Rect.unit (s := S5000x64) ![0, 0] S5000x64.size inb_S5000x64_S5000x64_0_0, k3_pay1 (View.ld x0 (Rect.unit (s := S5000x64) ![0, 0] S5000x64.size inb_S5000x64_S5000x64_0_0)) (View.ld x4 (Rect.unit (s := S1x64) ![0, 0] S1x64.size inb_S1x64_S1x64_0_0)) (View.ld x1 (Rect.unit (s := S1x64) ![0, 0] S1x64.size inb_S1x64_S1x64_0_0)) (View.ld x3 (Rect.unit (s := S1x64) ![0, 0] S1x64.size inb_S1x64_S1x64_0_0)) (View.ld x2 (Rect.unit (s := S1x64) ![0, 0] S1x64.size inb_S1x64_S1x64_0_0))⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) : ∀ (w : Fin cfg3.W) (d), w ≠ 5 → (dat3 V c).before w t d = (dat3 V c).after w t
  | 0, d, _ | 1, d, _ | 2, d, _ | 3, d, _ | 4, d, _ =>
    ((dat3 V c).before_in_eq_fetched _ rfl (fun _ => rfl) (fun _ _ _ => rfl) (fun _ => rfl) t d).trans rfl
  | 5, _, h => absurd rfl h

-- The one store covers the whole output block, so the block reads as the stored value of the input blocks.
theorem body_obligation3 (c : Dev nD) : BodyObligation (dat3 (F := F) V c) (defs₀ (F := F)) Variants.none () Set.univ := fun t => by
  rewrite [bigSep_W3, bigSep_W3, show (dat3 V c).Φ t.succ = (dat3 V c).Φ t.castSucc from rfl,
    show (dat3 V c).owesAt () t.succ = (dat3 V c).owesAt () t.castSucc from rfl]
  simp (disch := decide) only [before3 V c t]
  sl_whnfR [defs₀, Defs.onTc]
  sl_unfold [cc3__bn_relu_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out3_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after3_5 V c t).symm

end Cert.Kernel.Hand

end
-- ==== Proof.K.R4.lean ====
import proofs.«431426_j58171037057327_1_alg».proof.Proof.Gen.Kernel.Launch
import proofs.«431426_j58171037057327_1_alg».proof.Proof.Gen.Kernel.Skeleton
import proofs.«431426_j58171037057327_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_7 (x0 : Vec F S4000x144 .f32) (x1 : Vec F S144x128 .f32) (x2 : Vec F S1x128 .f32) (x3 : Vec F S128x64 .f32) (x4 : Vec F S1x64 .f32) (x5 : Vec F S64x128 .f32) (x6 : Vec F S1x128 .f32) : Vec F S4000x128 .f32 :=
  View.canon [⟨Rect.unit (s := S4000x128) ![0, 0] S4000x128.size inb_S4000x128_S4000x128_0_0, k4_pay1 (View.ld x0 (Rect.unit (s := S4000x144) ![0, 0] S4000x144.size inb_S4000x144_S4000x144_0_0)) (View.ld x1 (Rect.unit (s := S144x128) ![0, 0] S144x128.size inb_S144x128_S144x128_0_0)) (View.ld x2 (Rect.unit (s := S1x128) ![0, 0] S1x128.size inb_S1x128_S1x128_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x128) ![0, 0] S64x128.size inb_S64x128_S64x128_0_0)) (View.ld x6 (Rect.unit (s := S1x128) ![0, 0] S1x128.size inb_S1x128_S1x128_0_0))⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4 (c : Dev nD) (t : Fin cfg4.N) : ∀ (w : Fin cfg4.W) (d), w ≠ 7 → (dat4 V c).before w t d = (dat4 V c).after w t
  | 0, d, _ | 1, d, _ | 2, d, _ | 3, d, _ | 4, d, _ | 5, d, _ | 6, d, _ =>
    ((dat4 V c).before_in_eq_fetched _ rfl (fun _ => rfl) (fun _ _ _ => rfl) (fun _ => rfl) t d).trans rfl
  | 7, _, h => absurd rfl h

theorem body_obligation4 (c : Dev nD) : BodyObligation (dat4 (F := F) V c) (defs₀ (F := F)) Variants.none () Set.univ := fun t => by
  rewrite [bigSep_W4, bigSep_W4, show (dat4 V c).Φ t.succ = (dat4 V c).Φ t.castSucc from rfl,
    show (dat4 V c).owesAt () t.succ = (dat4 V c).owesAt () t.castSucc from rfl]
  simp (disch := decide) only [before4 V c t]
  sl_whnfR [defs₀, Defs.onTc]
  sl_unfold [cc4__edge_mlp_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %ff, %hf, Hf⟩, ⟨%_, %fg, %hg, Hg⟩, ⟨%_, %fz, -, Hz⟩⟩
  sl_exec
  sl_step
  have hz := congr (congr (congr (congr (congr (congr (congrArg out4_7 ha) hb) hc) hd) he) hf) hg
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  isplitl [Hf]; · iexists ff; iframe %hf Hf
  isplitl [Hg]; · iexists fg; iframe %hg Hg
  iexists _; iframe Hz
  ipureintro
  exact ((View.read_writes_eq_canon _ _ _ (View.cover_of_tiled _ S4000x128.size (by rfl))).trans hz).trans (after4_7 V c t).symm

end Cert.Kernel.Hand

end
-- ==== Proof.K.Regs.lean ====
import proofs.«431426_j58171037057327_1_alg».proof.Proof.K.R0
import proofs.«431426_j58171037057327_1_alg».proof.Proof.K.R1
import proofs.«431426_j58171037057327_1_alg».proof.Proof.K.R2
import proofs.«431426_j58171037057327_1_alg».proof.Proof.K.R3
import proofs.«431426_j58171037057327_1_alg».proof.Proof.K.R4
import proofs.«431426_j58171037057327_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

local notation "𝕄" => MT nD τ sig Unit (Elt F) ℕ (UR sig nD τ) ℕ

def W4 (c : Dev nD) : Valuation τ sig (Elt F) :=
  Pipeline.withArrays spec0 c (V3 m c) fun w => (dat0 (fun c b => V3 m c b) c).arrAt w cfg0.N
abbrev W5 (c : Dev nD) : Valuation τ sig (Elt F) := StableHlo.after hostOps1 (W4 m c)
def W6 (c : Dev nD) : Valuation τ sig (Elt F) :=
  Pipeline.withArrays spec1 c (W5 m c) fun w => (dat1 (fun c b => W5 m c b) c).arrAt w cfg1.N
abbrev W8 (c : Dev nD) : Valuation τ sig (Elt F) := StableHlo.after hostOps2_1 (StableHlo.after hostOps2 (W6 m c))
def W9 (c : Dev nD) : Valuation τ sig (Elt F) :=
  Pipeline.withArrays spec2 c (W8 m c) fun w => (dat2 (fun c b => W8 m c b) c).arrAt w cfg2.N
abbrev W10 (c : Dev nD) : Valuation τ sig (Elt F) := StableHlo.after hostOps3 (W9 m c)
def W11 (c : Dev nD) : Valuation τ sig (Elt F) :=
  Pipeline.withArrays spec3 c (W10 m c) fun w => (dat3 (fun c b => W10 m c b) c).arrAt w cfg3.N
abbrev W18 (c : Dev nD) : Valuation τ sig (Elt F) :=
  StableHlo.after hostOps4_6 (StableHlo.after hostOps4_5 (StableHlo.after hostOps4_4 (StableHlo.after hostOps4_3
    (StableHlo.after hostOps4_2 (StableHlo.after hostOps4_1 (StableHlo.after hostOps4 (W11 m c)))))))
def W19 (c : Dev nD) : Valuation τ sig (Elt F) :=
  Pipeline.withArrays spec4 c (W18 m c) fun w => (dat4 (fun c b => W18 m c b) c).arrAt w cfg4.N

/-- Updating at the one written array is replacing all arrays: an unwritten array keeps its entry contents. -/
theorem upd_eq {cfg : Cfg sig Λ₀} {c : Dev nD} (dat : Dat τ (Elt F) Unit ℕ (UR sig nD τ) ℕ cfg c)
    (hinj : Function.Injective (Pipeline.arrRef cfg.spec)) {Y : Valuation τ sig (Elt F)} (X : Valuation τ sig (Elt F)) (hY : Y = X) (r : Ref sig .tc)
    (hin : ∀ w, Pipeline.arrRef cfg.spec w ≠ r → (cfg.win w).isOut = false)
    (hA : ∀ w, dat.A w = X (Proc.devRef .tc (Pipeline.arrRef cfg.spec w))) :
    Function.update Y (Proc.devRef .tc r) (Pipeline.withArrays cfg.spec c X (dat.arrAt · cfg.N) (Proc.devRef .tc r))
      = Pipeline.withArrays cfg.spec c X (dat.arrAt · cfg.N) := by
  subst hY; funext b
  by_cases hb : b = Proc.devRef .tc r
  · subst hb; rw [Function.update_self]
  · rw [Function.update_of_ne hb]
    by_cases h : ∃ w, Proc.devRef .tc (Pipeline.arrRef cfg.spec w) = b
    · obtain ⟨w, rfl⟩ := h
      exact ((Pipeline.withArrays_arr cfg.spec hinj c _ _ w).trans
        ((dat.arrAt_in w (hin w fun e => hb (congrArg _ e)) _).trans (hA w))).symm
    · unfold Pipeline.withArrays; rw [dif_neg h]

def outs (m : (ℓ : Loc nD τ sig) → Buf (Elt F) ℓ) : Outs (F := F) := fun J r c =>
  if J = 4 then W4 m c (Proc.devRef .tc r)
  else if J = 6 then W6 m c (Proc.devRef .tc r)
  else if J = 9 then W9 m c (Proc.devRef .tc r)
  else if J = 11 then W11 m c (Proc.devRef .tc r)
  else W19 m c (Proc.devRef .tc r)

theorem V4_eq (c : Dev nD) : V4 m (outs m) c = W4 m c :=
  upd_eq (dat0 (fun c b => V3 m c b) c) launch0.win.arr_inj (V3 m c) rfl main_v20 (by decide) (A_eq0 _ c)
theorem V5_eq (c : Dev nD) : V5 m (outs m) c = W5 m c := congrArg (StableHlo.after hostOps1) (V4_eq m c)
theorem V6_eq (c : Dev nD) : V6 m (outs m) c = W6 m c :=
  upd_eq (dat1 (fun c b => W5 m c b) c) launch1.win.arr_inj (W5 m c) (V5_eq m c) main_v34 (by decide) (A_eq1 _ c)
theorem V8_eq (c : Dev nD) : V8 m (outs m) c = W8 m c :=
  congrArg (fun X => StableHlo.after hostOps2_1 (StableHlo.after hostOps2 X)) (V6_eq m c)
theorem V9_eq (c : Dev nD) : V9 m (outs m) c = W9 m c :=
  upd_eq (dat2 (fun c b => W8 m c b) c) launch2.win.arr_inj (W8 m c) (V8_eq m c) main_v44 (by decide) (A_eq2 _ c)
theorem V10_eq (c : Dev nD) : V10 m (outs m) c = W10 m c := congrArg (StableHlo.after hostOps3) (V9_eq m c)
theorem V11_eq (c : Dev nD) : V11 m (outs m) c = W11 m c :=
  upd_eq (dat3 (fun c b => W10 m c b) c) launch3.win.arr_inj (W10 m c) (V10_eq m c) main_v58 (by decide) (A_eq3 _ c)
theorem V18_eq (c : Dev nD) : V18 m (outs m) c = W18 m c :=
  congrArg (fun X => StableHlo.after hostOps4_6 (StableHlo.after hostOps4_5 (StableHlo.after hostOps4_4 (StableHlo.after hostOps4_3
    (StableHlo.after hostOps4_2 (StableHlo.after hostOps4_1 (StableHlo.after hostOps4 X))))))) (V11_eq m c)
theorem V19_eq (c : Dev nD) : V19 m (outs m) c = W19 m c :=
  upd_eq (dat4 (fun c b => W18 m c b) c) launch4.win.arr_inj (W18 m c) (V18_eq m c) main_v70 (by decide) (A_eq4 _ c)

abbrev at3 (c : Dev nD) (b : Ref sig .tc) : Buf (Elt F) ((c : Thread nD τ).loc b) := V3 m c b
abbrev at5 (c : Dev nD) (b : Ref sig .tc) : Buf (Elt F) ((c : Thread nD τ).loc b) := V5 m (outs m) c b
abbrev at8 (c : Dev nD) (b : Ref sig .tc) : Buf (Elt F) ((c : Thread nD τ).loc b) := V8 m (outs m) c b
abbrev at10 (c : Dev nD) (b : Ref sig .tc) : Buf (Elt F) ((c : Thread nD τ).loc b) := V10 m (outs m) c b
abbrev at18 (c : Dev nD) (b : Ref sig .tc) : Buf (Elt F) ((c : Thread nD τ).loc b) := V18 m (outs m) c b

theorem at5_eq : at5 m = fun (c : Dev nD) (b : Ref sig .tc) => W5 m c b := funext fun c => funext fun b => congrFun (V5_eq m c) _
theorem at8_eq : at8 m = fun (c : Dev nD) (b : Ref sig .tc) => W8 m c b := funext fun c => funext fun b => congrFun (V8_eq m c) _
theorem at10_eq : at10 m = fun (c : Dev nD) (b : Ref sig .tc) => W10 m c b := funext fun c => funext fun b => congrFun (V10_eq m c) _
theorem at18_eq : at18 m = fun (c : Dev nD) (b : Ref sig .tc) => W18 m c b := funext fun c => funext fun b => congrFun (V18_eq m c) _

/-- Each region's exit contents are its entry contents with its arrays replaced by what its data leave in them. -/
theorem hV0 (c : Dev nD) : V4 m (outs m) c = Pipeline.withArrays spec0 c (V3 m c) ((dat0 (at3 m) c).arrAt · cfg0.N) := V4_eq m c
theorem hV1 (c : Dev nD) : V6 m (outs m) c = Pipeline.withArrays spec1 c (V5 m (outs m) c) ((dat1 (at5 m) c).arrAt · cfg1.N) := by
  rw [V6_eq, at5_eq, V5_eq]; rfl
theorem hV2 (c : Dev nD) : V9 m (outs m) c = Pipeline.withArrays spec2 c (V8 m (outs m) c) ((dat2 (at8 m) c).arrAt · cfg2.N) := by
  rw [V9_eq, at8_eq, V8_eq]; rfl
theorem hV3 (c : Dev nD) : V11 m (outs m) c = Pipeline.withArrays spec3 c (V10 m (outs m) c) ((dat3 (at10 m) c).arrAt · cfg3.N) := by
  rw [V11_eq, at10_eq, V10_eq]; rfl
theorem hV4 (c : Dev nD) : V19 m (outs m) c = Pipeline.withArrays spec4 c (V18 m (outs m) c) ((dat4 (at18 m) c).arrAt · cfg4.N) := by
  rw [V19_eq, at18_eq, V18_eq]; rfl

theorem outs_4 (c : Dev nD) : outs m 4 main_v20 c = (dat0 (at3 m) c).arrAt 5 cfg0.N := by
  show W4 m c (Proc.devRef .tc main_v20) = _; exact Pipeline.withArrays_arr spec0 launch0.win.arr_inj c _ _ 5
theorem outs_6 (c : Dev nD) : outs m 6 main_v34 c = (dat1 (at5 m) c).arrAt 5 cfg1.N := by
  rw [at5_eq]; show W6 m c (Proc.devRef .tc main_v34) = _; exact Pipeline.withArrays_arr spec1 launch1.win.arr_inj c _ _ 5
theorem outs_9 (c : Dev nD) : outs m 9 main_v44 c = (dat2 (at8 m) c).arrAt 5 cfg2.N := by
  rw [at8_eq]; show W9 m c (Proc.devRef .tc main_v44) = _; exact Pipeline.withArrays_arr spec2 launch2.win.arr_inj c _ _ 5
theorem outs_11 (c : Dev nD) : outs m 11 main_v58 c = (dat3 (at10 m) c).arrAt 5 cfg3.N := by
  rw [at10_eq]; show W11 m c (Proc.devRef .tc main_v58) = _; exact Pipeline.withArrays_arr spec3 launch3.win.arr_inj c _ _ 5
theorem outs_19 (c : Dev nD) : outs m 19 main_v70 c = (dat4 (at18 m) c).arrAt 7 cfg4.N := by
  rw [at18_eq]; show W19 m c (Proc.devRef .tc main_v70) = _; exact Pipeline.withArrays_arr spec4 launch4.win.arr_inj c _ _ 7

def pdats : (p : Fin 5) → (c : Dev nD) → Dat τ (Elt F) Unit ℕ (UR sig nD τ) ℕ (Pipeline.pin (pcfgs (F := F)) adm p) c
  | ⟨0, _⟩ => fun c => dat0 (at3 m) c
  | ⟨1, _⟩ => fun c => dat1 (at5 m) c
  | ⟨2, _⟩ => fun c => dat2 (at8 m) c
  | ⟨3, _⟩ => fun c => dat3 (at10 m) c
  | ⟨4, _⟩ => fun c => dat4 (at18 m) c

abbrev L₀ : GSem nD τ sig → Finset Unit := fun _ => ∅
abbrev lv₀ : GSem nD τ sig → Unit → ℕ := fun _ _ => 0
abbrev Rest (c : Dev nD) : sProp 𝕄 := iprop((∃ r, prngReg c r) ∗ ∃ W, owes (c : Thread nD τ) (0 : CellTallies nD τ sig Unit) W)

set_option backward.isDefEq.respectTransparency.types false in
/-- One record for every region: entered at the contents `Vin`, left at `Vout`. -/
def mkReg (p : Fin 5) (lf : Pipeline.LaunchFacts (nD := nD) (τ := τ) cfgs p)
    (hb : ∀ c, BodyObligation (pdats m p c) (defs₀ (F := F)) Variants.none () Set.univ)
    (hq : ∀ c w, (pdats m p c).q w = fullShare) (howed : ∀ c t, (pdats m p c).owed t = 0) (hrec : ∀ c t x, x ∈ (pdats m p c).recorded t)
    (hΦ : ∀ c i, (pdats m p c).Φ i = Pipeline.ΦA (cfgs p).spec c)
    (Vin Vout : Dev nD → Valuation τ sig (Elt F))
    (hA : ∀ c w, (pdats m p c).A w = Vin c (Proc.devRef .tc (Pipeline.arrRef (cfgs p).spec w)))
    (hV : ∀ c, Vout c = Pipeline.withArrays (cfgs p).spec c (Vin c) ((pdats m p c).arrAt · (cfgs p).N)) :
    RegionSeg (pcfgs (F := F)) adm (pdats m) () defs₀ Variants.none L₀ lv₀ p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L₀ lv₀ p howed
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    unfold Pipeline.Dat.owesAt; rw [Pipeline.ownSems0_none, howed]
    have hsplit := Pipeline.arrays_of_unscopedBufs (p := p) (pcfgs (F := F)) adm (pdats m) lf.win lf.arr_whole c
      ((pdats m p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun x _ => Or.inl (hrec c 0 x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    unfold Pipeline.Dat.owesAt; rw [howed]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => Vin c b) (fun b => Vout c (Proc.devRef .tc b))
      ((pdats m p c).arrAt · (cfgs p).N)
      (fun w => ((congrFun (hV c) _).trans (Pipeline.withArrays_arr _ lf.win.arr_inj c _ _ w)).symm)
      (fun b hb => (congrFun (hV c) _).trans
        (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

def reg0 := mkReg m 0 launch0 (body_obligation0 (at3 m)) (fun _ _ => rfl) (fun _ _ => rfl) (fun _ _ _ => trivial) (fun _ _ => rfl) (V3 m) (V4 m (outs m)) (A_eq0 (at3 m)) (hV0 m)
def reg1 := mkReg m 1 launch1 (body_obligation1 (at5 m)) (fun _ _ => rfl) (fun _ _ => rfl) (fun _ _ _ => trivial) (fun _ _ => rfl) (V5 m (outs m)) (V6 m (outs m)) (A_eq1 (at5 m)) (hV1 m)
def reg2 := mkReg m 2 launch2 (body_obligation2 (at8 m)) (fun _ _ => rfl) (fun _ _ => rfl) (fun _ _ _ => trivial) (fun _ _ => rfl) (V8 m (outs m)) (V9 m (outs m)) (A_eq2 (at8 m)) (hV2 m)
def reg3 := mkReg m 3 launch3 (body_obligation3 (at10 m)) (fun _ _ => rfl) (fun _ _ => rfl) (fun _ _ _ => trivial) (fun _ _ => rfl) (V10 m (outs m)) (V11 m (outs m)) (A_eq3 (at10 m)) (hV3 m)
def reg4 := mkReg m 4 launch4 (body_obligation4 (at18 m)) (fun _ _ => rfl) (fun _ _ => rfl) (fun _ _ _ => trivial) (fun _ _ => rfl) (V18 m (outs m)) (V19 m (outs m)) (A_eq4 (at18 m)) (hV4 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  rw [BI.bigSep_emp_const]; iempintro

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_cond m emb₁ () Variants.none L₀ lv₀ (fun _ _ => rfl) ρ (outs m) (pdats m) 0 (fun _ => iprop(emp)) _ hu₀ (fun _ c => Rest c)
    (by
      refine Pipeline.initEach L₀ lv₀ fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

end Cert.Kernel.Hand

end
-- ==== Proof.KI.R0.lean ====
import proofs.«431426_j58171037057327_1_alg».proof.Proof.Gen.KernelIdeal.Launch
import proofs.«431426_j58171037057327_1_alg».proof.Proof.Gen.KernelIdeal.Skeleton
import proofs.«431426_j58171037057327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 : Vec F S5000x128 .f32) (x1 : Vec F S5000x128 .f32) (x2 : Vec F S128x64 .f32) (x3 : Vec F S128x64 .f32) (x4 : Vec F S1x64 .f32) : Vec F S5000x64 .f32 :=
  View.canon [⟨Rect.unit (s := S5000x64) ![0, 0] S5000x64.size inb_S5000x64_S5000x64_0_0, k0_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S128x64) ![0, 0] S128x64.size inb_S128x64_S128x64_0_0)) (View.ld x3 (Rect.unit (s := S128x64) ![0, 0] S128x64.size inb_S128x64_S128x64_0_0)) (View.ld x4 (Rect.unit (s := S1x64) ![0, 0] S1x64.size inb_S1x64_S1x64_0_0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before_dat0 (c : Dev nD) (t : Fin cfg0.N) : ∀ (w : Fin cfg0.W) (d), w ≠ 5 → (dat0 V c).before w t d = (dat0 V c).after w t
  | 0, d, _ | 1, d, _ | 2, d, _ | 3, d, _ | 4, d, _ =>
    ((dat0 V c).before_in_eq_fetched _ rfl (fun _ => rfl) (fun _ _ _ => rfl) (fun _ => rfl) t d).trans rfl
  | 5, _, h => absurd rfl h

/-- The one store covers the whole output block, so the block reads as the stored value of the input blocks. -/
theorem body_obligation0 (c : Dev nD) : BodyObligation (dat0 (F := F) V c) (defs₀ (F := F)) Variants.none () Set.univ := fun t => by
  rewrite [bigSep_W0, bigSep_W0, show (dat0 V c).Φ t.succ = (dat0 V c).Φ t.castSucc from rfl,
    show (dat0 V c).owesAt () t.succ = (dat0 V c).owesAt () t.castSucc from rfl]
  simp (disch := decide) only [before_dat0 V c t]
  sl_whnfR [defs₀, Defs.onTc]
  sl_unfold [cc0__sage_dense_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out0_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after0_5 V c t).symm

end Cert.KernelIdeal.Hand

end
-- ==== Proof.KI.R1.lean ====
import proofs.«431426_j58171037057327_1_alg».proof.Proof.Gen.KernelIdeal.Launch
import proofs.«431426_j58171037057327_1_alg».proof.Proof.Gen.KernelIdeal.Skeleton
import proofs.«431426_j58171037057327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 : Vec F S5000x64 .f32) (x1 : Vec F S1x64 .f32) (x2 : Vec F S1x64 .f32) (x3 : Vec F S1x64 .f32) (x4 : Vec F S1x64 .f32) : Vec F S5000x64 .f32 :=
  View.canon [⟨Rect.unit (s := S5000x64) ![0, 0] S5000x64.size inb_S5000x64_S5000x64_0_0, k1_pay1 (View.ld x0 (Rect.unit (s := S5000x64) ![0, 0] S5000x64.size inb_S5000x64_S5000x64_0_0)) (View.ld x4 (Rect.unit (s := S1x64) ![0, 0] S1x64.size inb_S1x64_S1x64_0_0)) (View.ld x1 (Rect.unit (s := S1x64) ![0, 0] S1x64.size inb_S1x64_S1x64_0_0)) (View.ld x3 (Rect.unit (s := S1x64) ![0, 0] S1x64.size inb_S1x64_S1x64_0_0)) (View.ld x2 (Rect.unit (s := S1x64) ![0, 0] S1x64.size inb_S1x64_S1x64_0_0))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ (w : Fin cfg1.W) (d), w ≠ 5 → (dat1 V c).before w t d = (dat1 V c).after w t
  | 0, d, _ | 1, d, _ | 2, d, _ | 3, d, _ | 4, d, _ =>
    ((dat1 V c).before_in_eq_fetched _ rfl (fun _ => rfl) (fun _ _ _ => rfl) (fun _ => rfl) t d).trans rfl
  | 5, _, h => absurd rfl h

-- The one store covers the whole output block, so the block reads as the stored value of the input blocks.
theorem body_obligation1 (c : Dev nD) : BodyObligation (dat1 (F := F) V c) (defs₀ (F := F)) Variants.none () Set.univ := fun t => by
  rewrite [bigSep_W1, bigSep_W1, show (dat1 V c).Φ t.succ = (dat1 V c).Φ t.castSucc from rfl,
    show (dat1 V c).owesAt () t.succ = (dat1 V c).owesAt () t.castSucc from rfl]
  simp (disch := decide) only [before1 V c t]
  sl_whnfR [defs₀, Defs.onTc]
  sl_unfold [cc1__bn_relu_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out1_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after1_5 V c t).symm

end Cert.KernelIdeal.Hand

end
-- ==== Proof.KI.R2.lean ====
import proofs.«431426_j58171037057327_1_alg».proof.Proof.Gen.KernelIdeal.Launch
import proofs.«431426_j58171037057327_1_alg».proof.Proof.Gen.KernelIdeal.Skeleton
import proofs.«431426_j58171037057327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 : Vec F S5000x64 .f32) (x1 : Vec F S5000x64 .f32) (x2 : Vec F S64x64 .f32) (x3 : Vec F S64x64 .f32) (x4 : Vec F S1x64 .f32) : Vec F S5000x64 .f32 :=
  View.canon [⟨Rect.unit (s := S5000x64) ![0, 0] S5000x64.size inb_S5000x64_S5000x64_0_0, k2_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before_dat2 (c : Dev nD) (t : Fin cfg2.N) : ∀ (w : Fin cfg2.W) (d), w ≠ 5 → (dat2 V c).before w t d = (dat2 V c).after w t
  | 0, d, _ | 1, d, _ | 2, d, _ | 3, d, _ | 4, d, _ =>
    ((dat2 V c).before_in_eq_fetched _ rfl (fun _ => rfl) (fun _ _ _ => rfl) (fun _ => rfl) t d).trans rfl
  | 5, _, h => absurd rfl h

/-- The one store covers the whole output block, so the block reads as the stored value of the input blocks. -/
theorem body_obligation2 (c : Dev nD) : BodyObligation (dat2 (F := F) V c) (defs₀ (F := F)) Variants.none () Set.univ := fun t => by
  rewrite [bigSep_W2, bigSep_W2, show (dat2 V c).Φ t.succ = (dat2 V c).Φ t.castSucc from rfl,
    show (dat2 V c).owesAt () t.succ = (dat2 V c).owesAt () t.castSucc from rfl]
  simp (disch := decide) only [before_dat2 V c t]
  sl_whnfR [defs₀, Defs.onTc]
  sl_unfold [cc2__sage_dense_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out2_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after2_5 V c t).symm

end Cert.KernelIdeal.Hand

end
-- ==== Proof.KI.R3.lean ====
import proofs.«431426_j58171037057327_1_alg».proof.Proof.Gen.KernelIdeal.Launch
import proofs.«431426_j58171037057327_1_alg».proof.Proof.Gen.KernelIdeal.Skeleton
import proofs.«431426_j58171037057327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_5 (x0 : Vec F S5000x64 .f32) (x1 : Vec F S1x64 .f32) (x2 : Vec F S1x64 .f32) (x3 : Vec F S1x64 .f32) (x4 : Vec F S1x64 .f32) : Vec F S5000x64 .f32 :=
  View.canon [⟨Rect.unit (s := S5000x64) ![0, 0] S5000x64.size inb_S5000x64_S5000x64_0_0, k3_pay1 (View.ld x0 (Rect.unit (s := S5000x64) ![0, 0] S5000x64.size inb_S5000x64_S5000x64_0_0)) (View.ld x4 (Rect.unit (s := S1x64) ![0, 0] S1x64.size inb_S1x64_S1x64_0_0)) (View.ld x1 (Rect.unit (s := S1x64) ![0, 0] S1x64.size inb_S1x64_S1x64_0_0)) (View.ld x3 (Rect.unit (s := S1x64) ![0, 0] S1x64.size inb_S1x64_S1x64_0_0)) (View.ld x2 (Rect.unit (s := S1x64) ![0, 0] S1x64.size inb_S1x64_S1x64_0_0))⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) : ∀ (w : Fin cfg3.W) (d), w ≠ 5 → (dat3 V c).before w t d = (dat3 V c).after w t
  | 0, d, _ | 1, d, _ | 2, d, _ | 3, d, _ | 4, d, _ =>
    ((dat3 V c).before_in_eq_fetched _ rfl (fun _ => rfl) (fun _ _ _ => rfl) (fun _ => rfl) t d).trans rfl
  | 5, _, h => absurd rfl h

-- The one store covers the whole output block, so the block reads as the stored value of the input blocks.
theorem body_obligation3 (c : Dev nD) : BodyObligation (dat3 (F := F) V c) (defs₀ (F := F)) Variants.none () Set.univ := fun t => by
  rewrite [bigSep_W3, bigSep_W3, show (dat3 V c).Φ t.succ = (dat3 V c).Φ t.castSucc from rfl,
    show (dat3 V c).owesAt () t.succ = (dat3 V c).owesAt () t.castSucc from rfl]
  simp (disch := decide) only [before3 V c t]
  sl_whnfR [defs₀, Defs.onTc]
  sl_unfold [cc3__bn_relu_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %fz, -, Hz⟩⟩
  sl_exec
  sl_step
  have hz := congr (congr (congr (congr (congrArg out3_5 ha) hb) hc) hd) he
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  iexists _; iframe Hz
  ipureintro
  exact ((View.read_writes_eq_canon _ _ _ (View.cover_of_tiled _ S5000x64.size (by rfl))).trans hz).trans (after3_5 V c t).symm

end Cert.KernelIdeal.Hand

end
-- ==== Proof.KI.R4.lean ====
import proofs.«431426_j58171037057327_1_alg».proof.Proof.Gen.KernelIdeal.Launch
import proofs.«431426_j58171037057327_1_alg».proof.Proof.Gen.KernelIdeal.Skeleton
import proofs.«431426_j58171037057327_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_7 (x0 : Vec F S4000x144 .f32) (x1 : Vec F S144x128 .f32) (x2 : Vec F S1x128 .f32) (x3 : Vec F S128x64 .f32) (x4 : Vec F S1x64 .f32) (x5 : Vec F S64x128 .f32) (x6 : Vec F S1x128 .f32) : Vec F S4000x128 .f32 :=
  View.canon [⟨Rect.unit (s := S4000x128) ![0, 0] S4000x128.size inb_S4000x128_S4000x128_0_0, k4_pay1 (View.ld x0 (Rect.unit (s := S4000x144) ![0, 0] S4000x144.size inb_S4000x144_S4000x144_0_0)) (View.ld x1 (Rect.unit (s := S144x128) ![0, 0] S144x128.size inb_S144x128_S144x128_0_0)) (View.ld x2 (Rect.unit (s := S1x128) ![0, 0] S1x128.size inb_S1x128_S1x128_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x128) ![0, 0] S64x128.size inb_S64x128_S64x128_0_0)) (View.ld x6 (Rect.unit (s := S1x128) ![0, 0] S1x128.size inb_S1x128_S1x128_0_0))⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4 (c : Dev nD) (t : Fin cfg4.N) : ∀ (w : Fin cfg4.W) (d), w ≠ 7 → (dat4 V c).before w t d = (dat4 V c).after w t
  | 0, d, _ | 1, d, _ | 2, d, _ | 3, d, _ | 4, d, _ | 5, d, _ | 6, d, _ =>
    ((dat4 V c).before_in_eq_fetched _ rfl (fun _ => rfl) (fun _ _ _ => rfl) (fun _ => rfl) t d).trans rfl
  | 7, _, h => absurd rfl h

theorem body_obligation4 (c : Dev nD) : BodyObligation (dat4 (F := F) V c) (defs₀ (F := F)) Variants.none () Set.univ := fun t => by
  rewrite [bigSep_W4, bigSep_W4, show (dat4 V c).Φ t.succ = (dat4 V c).Φ t.castSucc from rfl,
    show (dat4 V c).owesAt () t.succ = (dat4 V c).owesAt () t.castSucc from rfl]
  simp (disch := decide) only [before4 V c t]
  sl_whnfR [defs₀, Defs.onTc]
  sl_unfold [cc4__edge_mlp_kernel]
  unfold owns
  iintro ⟨HΦ, Ho, ⟨%_, %fa, %ha, Ha⟩, ⟨%_, %fb, %hb, Hb⟩, ⟨%_, %fc, %hc, Hc⟩, ⟨%_, %fd, %hd, Hd⟩, ⟨%_, %fe, %he, He⟩, ⟨%_, %ff, %hf, Hf⟩, ⟨%_, %fg, %hg, Hg⟩, ⟨%_, %fz, -, Hz⟩⟩
  sl_exec
  sl_step
  have hz := congr (congr (congr (congr (congr (congr (congrArg out4_7 ha) hb) hc) hd) he) hf) hg
  iframe HΦ Ho
  isplitl [Ha]; · iexists fa; iframe %ha Ha
  isplitl [Hb]; · iexists fb; iframe %hb Hb
  isplitl [Hc]; · iexists fc; iframe %hc Hc
  isplitl [Hd]; · iexists fd; iframe %hd Hd
  isplitl [He]; · iexists fe; iframe %he He
  isplitl [Hf]; · iexists ff; iframe %hf Hf
  isplitl [Hg]; · iexists fg; iframe %hg Hg
  iexists _; iframe Hz
  ipureintro
  exact ((View.read_writes_eq_canon _ _ _ (View.cover_of_tiled _ S4000x128.size (by rfl))).trans hz).trans (after4_7 V c t).symm

end Cert.KernelIdeal.Hand

end
-- ==== Proof.KI.Regs.lean ====
import proofs.«431426_j58171037057327_1_alg».proof.Proof.KI.R0
import proofs.«431426_j58171037057327_1_alg».proof.Proof.KI.R1
import proofs.«431426_j58171037057327_1_alg».proof.Proof.KI.R2
import proofs.«431426_j58171037057327_1_alg».proof.Proof.KI.R3
import proofs.«431426_j58171037057327_1_alg».proof.Proof.KI.R4
import proofs.«431426_j58171037057327_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

local notation "𝕄" => MT nD τ sig Unit (Elt F) ℕ (UR sig nD τ) ℕ

def W4 (c : Dev nD) : Valuation τ sig (Elt F) :=
  Pipeline.withArrays spec0 c (V3 m c) fun w => (dat0 (fun c b => V3 m c b) c).arrAt w cfg0.N
abbrev W5 (c : Dev nD) : Valuation τ sig (Elt F) := StableHlo.after hostOps1 (W4 m c)
def W6 (c : Dev nD) : Valuation τ sig (Elt F) :=
  Pipeline.withArrays spec1 c (W5 m c) fun w => (dat1 (fun c b => W5 m c b) c).arrAt w cfg1.N
abbrev W8 (c : Dev nD) : Valuation τ sig (Elt F) := StableHlo.after hostOps2_1 (StableHlo.after hostOps2 (W6 m c))
def W9 (c : Dev nD) : Valuation τ sig (Elt F) :=
  Pipeline.withArrays spec2 c (W8 m c) fun w => (dat2 (fun c b => W8 m c b) c).arrAt w cfg2.N
abbrev W10 (c : Dev nD) : Valuation τ sig (Elt F) := StableHlo.after hostOps3 (W9 m c)
def W11 (c : Dev nD) : Valuation τ sig (Elt F) :=
  Pipeline.withArrays spec3 c (W10 m c) fun w => (dat3 (fun c b => W10 m c b) c).arrAt w cfg3.N
abbrev W18 (c : Dev nD) : Valuation τ sig (Elt F) :=
  StableHlo.after hostOps4_6 (StableHlo.after hostOps4_5 (StableHlo.after hostOps4_4 (StableHlo.after hostOps4_3
    (StableHlo.after hostOps4_2 (StableHlo.after hostOps4_1 (StableHlo.after hostOps4 (W11 m c)))))))
def W19 (c : Dev nD) : Valuation τ sig (Elt F) :=
  Pipeline.withArrays spec4 c (W18 m c) fun w => (dat4 (fun c b => W18 m c b) c).arrAt w cfg4.N

/-- Updating at the one written array is replacing all arrays: an unwritten array keeps its entry contents. -/
theorem upd_eq {cfg : Cfg sig Λ₀} {c : Dev nD} (dat : Dat τ (Elt F) Unit ℕ (UR sig nD τ) ℕ cfg c)
    (hinj : Function.Injective (Pipeline.arrRef cfg.spec)) {Y : Valuation τ sig (Elt F)} (X : Valuation τ sig (Elt F)) (hY : Y = X) (r : Ref sig .tc)
    (hin : ∀ w, Pipeline.arrRef cfg.spec w ≠ r → (cfg.win w).isOut = false)
    (hA : ∀ w, dat.A w = X (Proc.devRef .tc (Pipeline.arrRef cfg.spec w))) :
    Function.update Y (Proc.devRef .tc r) (Pipeline.withArrays cfg.spec c X (dat.arrAt · cfg.N) (Proc.devRef .tc r))
      = Pipeline.withArrays cfg.spec c X (dat.arrAt · cfg.N) := by
  subst hY; funext b
  by_cases hb : b = Proc.devRef .tc r
  · subst hb; rw [Function.update_self]
  · rw [Function.update_of_ne hb]
    by_cases h : ∃ w, Proc.devRef .tc (Pipeline.arrRef cfg.spec w) = b
    · obtain ⟨w, rfl⟩ := h
      exact ((Pipeline.withArrays_arr cfg.spec hinj c _ _ w).trans
        ((dat.arrAt_in w (hin w fun e => hb (congrArg _ e)) _).trans (hA w))).symm
    · unfold Pipeline.withArrays; rw [dif_neg h]

def outs (m : (ℓ : Loc nD τ sig) → Buf (Elt F) ℓ) : Outs (F := F) := fun J r c =>
  if J = 4 then W4 m c (Proc.devRef .tc r)
  else if J = 6 then W6 m c (Proc.devRef .tc r)
  else if J = 9 then W9 m c (Proc.devRef .tc r)
  else if J = 11 then W11 m c (Proc.devRef .tc r)
  else W19 m c (Proc.devRef .tc r)

theorem V4_eq (c : Dev nD) : V4 m (outs m) c = W4 m c :=
  upd_eq (dat0 (fun c b => V3 m c b) c) launch0.win.arr_inj (V3 m c) rfl main_v20 (by decide) (A_eq0 _ c)
theorem V5_eq (c : Dev nD) : V5 m (outs m) c = W5 m c := congrArg (StableHlo.after hostOps1) (V4_eq m c)
theorem V6_eq (c : Dev nD) : V6 m (outs m) c = W6 m c :=
  upd_eq (dat1 (fun c b => W5 m c b) c) launch1.win.arr_inj (W5 m c) (V5_eq m c) main_v34 (by decide) (A_eq1 _ c)
theorem V8_eq (c : Dev nD) : V8 m (outs m) c = W8 m c :=
  congrArg (fun X => StableHlo.after hostOps2_1 (StableHlo.after hostOps2 X)) (V6_eq m c)
theorem V9_eq (c : Dev nD) : V9 m (outs m) c = W9 m c :=
  upd_eq (dat2 (fun c b => W8 m c b) c) launch2.win.arr_inj (W8 m c) (V8_eq m c) main_v44 (by decide) (A_eq2 _ c)
theorem V10_eq (c : Dev nD) : V10 m (outs m) c = W10 m c := congrArg (StableHlo.after hostOps3) (V9_eq m c)
theorem V11_eq (c : Dev nD) : V11 m (outs m) c = W11 m c :=
  upd_eq (dat3 (fun c b => W10 m c b) c) launch3.win.arr_inj (W10 m c) (V10_eq m c) main_v58 (by decide) (A_eq3 _ c)
theorem V18_eq (c : Dev nD) : V18 m (outs m) c = W18 m c :=
  congrArg (fun X => StableHlo.after hostOps4_6 (StableHlo.after hostOps4_5 (StableHlo.after hostOps4_4 (StableHlo.after hostOps4_3
    (StableHlo.after hostOps4_2 (StableHlo.after hostOps4_1 (StableHlo.after hostOps4 X))))))) (V11_eq m c)
theorem V19_eq (c : Dev nD) : V19 m (outs m) c = W19 m c :=
  upd_eq (dat4 (fun c b => W18 m c b) c) launch4.win.arr_inj (W18 m c) (V18_eq m c) main_v70 (by decide) (A_eq4 _ c)

abbrev at3 (c : Dev nD) (b : Ref sig .tc) : Buf (Elt F) ((c : Thread nD τ).loc b) := V3 m c b
abbrev at5 (c : Dev nD) (b : Ref sig .tc) : Buf (Elt F) ((c : Thread nD τ).loc b) := V5 m (outs m) c b
abbrev at8 (c : Dev nD) (b : Ref sig .tc) : Buf (Elt F) ((c : Thread nD τ).loc b) := V8 m (outs m) c b
abbrev at10 (c : Dev nD) (b : Ref sig .tc) : Buf (Elt F) ((c : Thread nD τ).loc b) := V10 m (outs m) c b
abbrev at18 (c : Dev nD) (b : Ref sig .tc) : Buf (Elt F) ((c : Thread nD τ).loc b) := V18 m (outs m) c b

theorem at5_eq : at5 m = fun (c : Dev nD) (b : Ref sig .tc) => W5 m c b := funext fun c => funext fun b => congrFun (V5_eq m c) _
theorem at8_eq : at8 m = fun (c : Dev nD) (b : Ref sig .tc) => W8 m c b := funext fun c => funext fun b => congrFun (V8_eq m c) _
theorem at10_eq : at10 m = fun (c : Dev nD) (b : Ref sig .tc) => W10 m c b := funext fun c => funext fun b => congrFun (V10_eq m c) _
theorem at18_eq : at18 m = fun (c : Dev nD) (b : Ref sig .tc) => W18 m c b := funext fun c => funext fun b => congrFun (V18_eq m c) _

/-- Each region's exit contents are its entry contents with its arrays replaced by what its data leave in them. -/
theorem hV0 (c : Dev nD) : V4 m (outs m) c = Pipeline.withArrays spec0 c (V3 m c) ((dat0 (at3 m) c).arrAt · cfg0.N) := V4_eq m c
theorem hV1 (c : Dev nD) : V6 m (outs m) c = Pipeline.withArrays spec1 c (V5 m (outs m) c) ((dat1 (at5 m) c).arrAt · cfg1.N) := by
  rw [V6_eq, at5_eq, V5_eq]; rfl
theorem hV2 (c : Dev nD) : V9 m (outs m) c = Pipeline.withArrays spec2 c (V8 m (outs m) c) ((dat2 (at8 m) c).arrAt · cfg2.N) := by
  rw [V9_eq, at8_eq, V8_eq]; rfl
theorem hV3 (c : Dev nD) : V11 m (outs m) c = Pipeline.withArrays spec3 c (V10 m (outs m) c) ((dat3 (at10 m) c).arrAt · cfg3.N) := by
  rw [V11_eq, at10_eq, V10_eq]; rfl
theorem hV4 (c : Dev nD) : V19 m (outs m) c = Pipeline.withArrays spec4 c (V18 m (outs m) c) ((dat4 (at18 m) c).arrAt · cfg4.N) := by
  rw [V19_eq, at18_eq, V18_eq]; rfl

theorem outs_4 (c : Dev nD) : outs m 4 main_v20 c = (dat0 (at3 m) c).arrAt 5 cfg0.N := by
  show W4 m c (Proc.devRef .tc main_v20) = _; exact Pipeline.withArrays_arr spec0 launch0.win.arr_inj c _ _ 5
theorem outs_6 (c : Dev nD) : outs m 6 main_v34 c = (dat1 (at5 m) c).arrAt 5 cfg1.N := by
  rw [at5_eq]; show W6 m c (Proc.devRef .tc main_v34) = _; exact Pipeline.withArrays_arr spec1 launch1.win.arr_inj c _ _ 5
theorem outs_9 (c : Dev nD) : outs m 9 main_v44 c = (dat2 (at8 m) c).arrAt 5 cfg2.N := by
  rw [at8_eq]; show W9 m c (Proc.devRef .tc main_v44) = _; exact Pipeline.withArrays_arr spec2 launch2.win.arr_inj c _ _ 5
theorem outs_11 (c : Dev nD) : outs m 11 main_v58 c = (dat3 (at10 m) c).arrAt 5 cfg3.N := by
  rw [at10_eq]; show W11 m c (Proc.devRef .tc main_v58) = _; exact Pipeline.withArrays_arr spec3 launch3.win.arr_inj c _ _ 5
theorem outs_19 (c : Dev nD) : outs m 19 main_v70 c = (dat4 (at18 m) c).arrAt 7 cfg4.N := by
  rw [at18_eq]; show W19 m c (Proc.devRef .tc main_v70) = _; exact Pipeline.withArrays_arr spec4 launch4.win.arr_inj c _ _ 7

def pdats : (p : Fin 5) → (c : Dev nD) → Dat τ (Elt F) Unit ℕ (UR sig nD τ) ℕ (Pipeline.pin (pcfgs (F := F)) adm p) c
  | ⟨0, _⟩ => fun c => dat0 (at3 m) c
  | ⟨1, _⟩ => fun c => dat1 (at5 m) c
  | ⟨2, _⟩ => fun c => dat2 (at8 m) c
  | ⟨3, _⟩ => fun c => dat3 (at10 m) c
  | ⟨4, _⟩ => fun c => dat4 (at18 m) c

abbrev L₀ : GSem nD τ sig → Finset Unit := fun _ => ∅
abbrev lv₀ : GSem nD τ sig → Unit → ℕ := fun _ _ => 0
abbrev Rest (c : Dev nD) : sProp 𝕄 := iprop((∃ r, prngReg c r) ∗ ∃ W, owes (c : Thread nD τ) (0 : CellTallies nD τ sig Unit) W)

set_option backward.isDefEq.respectTransparency.types false in
/-- One record for every region: entered at the contents `Vin`, left at `Vout`. -/
def mkReg (p : Fin 5) (lf : Pipeline.LaunchFacts (nD := nD) (τ := τ) cfgs p)
    (hb : ∀ c, BodyObligation (pdats m p c) (defs₀ (F := F)) Variants.none () Set.univ)
    (hq : ∀ c w, (pdats m p c).q w = fullShare) (howed : ∀ c t, (pdats m p c).owed t = 0) (hrec : ∀ c t x, x ∈ (pdats m p c).recorded t)
    (hΦ : ∀ c i, (pdats m p c).Φ i = Pipeline.ΦA (cfgs p).spec c)
    (Vin Vout : Dev nD → Valuation τ sig (Elt F))
    (hA : ∀ c w, (pdats m p c).A w = Vin c (Proc.devRef .tc (Pipeline.arrRef (cfgs p).spec w)))
    (hV : ∀ c, Vout c = Pipeline.withArrays (cfgs p).spec c (Vin c) ((pdats m p c).arrAt · (cfgs p).N)) :
    RegionSeg (pcfgs (F := F)) adm (pdats m) () defs₀ Variants.none L₀ lv₀ p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L₀ lv₀ p howed
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    unfold Pipeline.Dat.owesAt; rw [Pipeline.ownSems0_none, howed]
    have hsplit := Pipeline.arrays_of_unscopedBufs (p := p) (pcfgs (F := F)) adm (pdats m) lf.win lf.arr_whole c
      ((pdats m p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun x _ => Or.inl (hrec c 0 x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    unfold Pipeline.Dat.owesAt; rw [howed]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => Vin c b) (fun b => Vout c (Proc.devRef .tc b))
      ((pdats m p c).arrAt · (cfgs p).N)
      (fun w => ((congrFun (hV c) _).trans (Pipeline.withArrays_arr _ lf.win.arr_inj c _ _ w)).symm)
      (fun b hb => (congrFun (hV c) _).trans
        (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

def reg0 := mkReg m 0 launch0 (body_obligation0 (at3 m)) (fun _ _ => rfl) (fun _ _ => rfl) (fun _ _ _ => trivial) (fun _ _ => rfl) (V3 m) (V4 m (outs m)) (A_eq0 (at3 m)) (hV0 m)
def reg1 := mkReg m 1 launch1 (body_obligation1 (at5 m)) (fun _ _ => rfl) (fun _ _ => rfl) (fun _ _ _ => trivial) (fun _ _ => rfl) (V5 m (outs m)) (V6 m (outs m)) (A_eq1 (at5 m)) (hV1 m)
def reg2 := mkReg m 2 launch2 (body_obligation2 (at8 m)) (fun _ _ => rfl) (fun _ _ => rfl) (fun _ _ _ => trivial) (fun _ _ => rfl) (V8 m (outs m)) (V9 m (outs m)) (A_eq2 (at8 m)) (hV2 m)
def reg3 := mkReg m 3 launch3 (body_obligation3 (at10 m)) (fun _ _ => rfl) (fun _ _ => rfl) (fun _ _ _ => trivial) (fun _ _ => rfl) (V10 m (outs m)) (V11 m (outs m)) (A_eq3 (at10 m)) (hV3 m)
def reg4 := mkReg m 4 launch4 (body_obligation4 (at18 m)) (fun _ _ => rfl) (fun _ _ => rfl) (fun _ _ _ => trivial) (fun _ _ => rfl) (V18 m (outs m)) (V19 m (outs m)) (A_eq4 (at18 m)) (hV4 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  rw [BI.bigSep_emp_const]; iempintro

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_cond m emb₁ () Variants.none L₀ lv₀ (fun _ _ => rfl) ρ (outs m) (pdats m) 0 (fun _ => iprop(emp)) _ hu₀ (fun _ c => Rest c)
    (by
      refine Pipeline.initEach L₀ lv₀ fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

end Cert.KernelIdeal.Hand

end
-- ==== Proof.KI.Run.lean ====
import proofs.«431426_j58171037057327_1_alg».proof.Proof.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c.tc : Thread nD τ).1, b) = V20 m (outs m) c b) := by
  refine Pipeline.θ_run_regions_kit_dev (pcfgs (F := F)) adm (pdats m) () cellOf_inj emb₁ defs₀ Variants.none L₀ lv₀ m ρ main
    (segs m (outs m) Variants.none L₀ lv₀ (fun _ c => Rest c) () (pdats m) (reg0 m) (reg1 m) (reg2 m) (reg3 m) (reg4 m))
    (fun c Q => by
      rewrite [main_chain c, Seg.run_eq_chain,
        show (segs m (outs m) Variants.none L₀ lv₀ (fun _ c => Rest c) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          Prog.lift (.customCall (Pipeline.entry 4) ()),
          StableHlo.seq hostOps5 ] from rfl]
      exact .rfl)
    (fun c => by simp only [segs, Seg.pipes_host, Seg.pipes_region, Seg.pipes_nil]; decide) 0 (fun _ _ => rfl) (fun _ => iprop(emp)) _ hu₀
    (T₀ := fun c => iprop(StableHlo.held (c : Thread nD τ) (Pipeline.ucRefs τ sig) (V0 m c) ∗ Rest c))
    (Tₙ := fun c => StableHlo.held (c : Thread nD τ) (Pipeline.ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_) (QY := fun c s => ∀ b ∈ Pipeline.ucRefs τ sig, s.mem ((c.tc : Thread nD τ).1, b) = V20 m (outs m) c b)
    (hfin := fun c s' => ?_) (hQ := fun _ h => h)
  · refine Pipeline.initEach L₀ lv₀ fun c => ?_
    rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V20 m (outs m) c) s') $$ [Hh HSI]
    · isplitl [Hh] <;> iassumption
    icases Hr with ⟨%h, HSI⟩
    imodintro
    isplitr
    · ipureintro; exact h
    · iexact HSI

theorem run_result (ρ : Dev nD → PrngReg) :
    θ_run defs (onTc (τ := τ) (main (F := F))) ⟨m, fun _ => 0, ρ⟩ (fun r => ∀ c : Dev nD,
      r.2.mem ((c.tc : Thread nD τ).loc main_v71) = V20 m (outs m) c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (Q := fun r => ∀ c : Dev nD, ∀ b ∈ Pipeline.ucRefs τ sig, r.2.mem ((c.tc : Thread nD τ).1, b) = V20 m (outs m) c b) (fun r h c => by
    have g : ∀ b : Ref sig .tc, ¬ (Proc.devRef .tc b : DevRef τ sig).isScoped →
        r.2.mem ((c.tc : Thread nD τ).1, Proc.devRef .tc b) = V20 m (outs m) c (Proc.devRef .tc b) :=
      fun b hb => h c _ (Finset.mem_filter.mpr ⟨StableHlo.devRef_mem_tcRefs b, hb⟩)
    exact ⟨g main_v71 (by decide), (g main_arg0 (by decide)).trans (V20_main_arg0 m _ c), (g main_arg1 (by decide)).trans (V20_main_arg1 m _ c),
      (g main_arg2 (by decide)).trans (V20_main_arg2 m _ c), (g main_arg3 (by decide)).trans (V20_main_arg3 m _ c), (g main_arg4 (by decide)).trans (V20_main_arg4 m _ c),
      (g main_arg5 (by decide)).trans (V20_main_arg5 m _ c), (g main_arg6 (by decide)).trans (V20_main_arg6 m _ c), (g main_arg7 (by decide)).trans (V20_main_arg7 m _ c),
      (g main_arg8 (by decide)).trans (V20_main_arg8 m _ c), (g main_arg9 (by decide)).trans (V20_main_arg9 m _ c), (g main_arg10 (by decide)).trans (V20_main_arg10 m _ c),
      (g main_arg11 (by decide)).trans (V20_main_arg11 m _ c), (g main_arg12 (by decide)).trans (V20_main_arg12 m _ c), (g main_arg13 (by decide)).trans (V20_main_arg13 m _ c),
      (g main_arg14 (by decide)).trans (V20_main_arg14 m _ c), (g main_arg15 (by decide)).trans (V20_main_arg15 m _ c), (g main_arg16 (by decide)).trans (V20_main_arg16 m _ c),
      (g main_arg17 (by decide)).trans (V20_main_arg17 m _ c), (g main_arg18 (by decide)).trans (V20_main_arg18 m _ c)⟩) (run_all m ρ)

end Cert.KernelIdeal.Hand

end
-- ==== Proof.IdxPre.lean ====
import proofs.«431426_j58171037057327_1_alg».proof.Pre_finite_inputs
import Idealize.ShloMosaic.Lib.ReduceAll
import Idealize.ShloMosaic.Lib.StableHlo.Predicate
import Idealize.ShloMosaic.Lib.ValueIdx

namespace Cert.IdxPre

open Idealize.ShloMosaic
open Cert.Pre_finite_inputs

instance subsingleton_scalar_idx : Subsingleton S_.Idx := ⟨fun _ _ => funext fun d => d.elim0⟩

theorem bit_eq_zero_of_ne_one {c : BitVec 1} (h : ¬c = 1#1) : c = 0#1 := by revert c; decide

theorem toInt_zero32 : (0#32 : BitVec 32).toInt = 0 := by decide
theorem toInt_50000 : (50000#32 : BitVec 32).toInt = 50000 := by decide
theorem toInt_49999 : (49999#32 : BitVec 32).toInt = 49999 := by decide

-- The precondition's last two conjuncts are reductions by `and` of signed comparisons over the whole edge-index array.
theorem idx_range {F : FTy → Type} [FloatOps F] [Facts]
    (a0 : FVec F S50000x128 .f32) (a1 : IVec S2x800000 32) (a2 : FVec F S800000x16 .f32) (a3 : FVec F S64x128 .f32)
    (a4 : FVec F S64 .f32) (a5 : FVec F S64x128 .f32) (a6 : FVec F S64 .f32) (a7 : FVec F S64 .f32)
    (a8 : FVec F S64x64 .f32) (a9 : FVec F S64 .f32) (a10 : FVec F S64x64 .f32) (a11 : FVec F S64 .f32)
    (a12 : FVec F S64 .f32) (a13 : FVec F S128x144 .f32) (a14 : FVec F S128 .f32) (a15 : FVec F S64x128 .f32)
    (a16 : FVec F S64 .f32) (a17 : FVec F S2x64 .f32) (a18 : FVec F S2 .f32)
    (h : fn (F := F) a0 a1 a2 a3 a4 a5 a6 a7 a8 a9 a10 a11 a12 a13 a14 a15 a16 a17 a18 = fun _ => 1#1)
    (j : S2x800000.Idx) : (0 : Int) ≤ (a1 j).toInt ∧ (a1 j).toInt < 50000 := by
  have h0 := congrFun h ValueIdx.ix0
  dsimp only [fn, fn_part1, fn_part2, fn_part3, fn_part4, fn_part5] at h0
  obtain ⟨h1, h95⟩ := IntOp.andi_eq_one.1 h0
  obtain ⟨_, h91⟩ := IntOp.andi_eq_one.1 h1
  have hge := Host.reduce_andi_all _ _ _ _ _ h91 j
  have hlt := Host.reduce_andi_all _ _ _ _ _ h95 j
  have hge' := IntOp.cmpi_sge.1 hge
  have hlt' := IntOp.cmpi_slt.1 hlt
  change (0#32 : BitVec 32).toInt ≤ (a1 j).toInt at hge'
  change (a1 j).toInt < (50000#32 : BitVec 32).toInt at hlt'
  rw [toInt_zero32] at hge'
  rw [toInt_50000] at hlt'
  exact ⟨hge', hlt'⟩

section Words
variable {x : BitVec 32}

theorem slt_zero_of_range (h0 : (0 : Int) ≤ x.toInt) (_h1 : x.toInt < 50000) : IntOp.cmpi .slt x 0#32 = 0#1 := by
  apply bit_eq_zero_of_ne_one
  intro hc
  have := IntOp.cmpi_slt.1 hc
  rw [toInt_zero32] at this
  omega

theorem sge_zero_of_range (h0 : (0 : Int) ≤ x.toInt) (_h1 : x.toInt < 50000) : IntOp.cmpi .sge x 0#32 = 1#1 := by
  rw [IntOp.cmpi_sge, toInt_zero32]; exact h0

theorem sle_max_of_range (_h0 : (0 : Int) ≤ x.toInt) (h1 : x.toInt < 50000) : IntOp.cmpi .sle x 49999#32 = 1#1 := by
  rw [IntOp.cmpi_sle, toInt_49999]; omega

end Words

end Cert.IdxPre
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr (a b : Nat) : Type := (⟨2, ![a, b]⟩ : Shape).Idx → EReal

-- Entry (p, q) of A · Wl + X · Wr + b, the bias a row.
def sageEntry {N K H : Nat} (A X : Arr N K) (Wl Wr : Arr K H) (b : Arr 1 H) (p : Fin N) (q : Fin H) : EReal :=
  ((∑ k : Fin K, A (ix2 p k) * Wl (ix2 k q)) + (∑ k : Fin K, X (ix2 p k) * Wr (ix2 k q))) + b (ix2 0 q)

-- Entry (p, q) of max (g · (h − mu) · rsqrt (va + ε) + be) 0, the four parameters rows.
def bnEntry {N H : Nat} (h : Arr N H) (g be mu va : Arr 1 H) (p : Fin N) (q : Fin H) : EReal :=
  max (((g (ix2 0 q) * (h (ix2 p q) - mu (ix2 0 q))) * Ideal.rsqrt (va (ix2 0 q) + Ideal.ofBits .f32 0x3727C5AC#32)) + be (ix2 0 q)) 0

-- The edge network: three affine layers, clipped at zero after the first two.
def mlpZ1 {N D H1 : Nat} (E : Arr N D) (W1 : Arr D H1) (b1 : Arr 1 H1) (e : Fin N) (j : Fin H1) : EReal :=
  max ((∑ k : Fin D, E (ix2 e k) * W1 (ix2 k j)) + b1 (ix2 0 j)) 0

def mlpZ2 {N D H1 H2 : Nat} (E : Arr N D) (W1 : Arr D H1) (b1 : Arr 1 H1) (W2 : Arr H1 H2) (b2 : Arr 1 H2)
    (e : Fin N) (j : Fin H2) : EReal :=
  max ((∑ k : Fin H1, mlpZ1 E W1 b1 e k * W2 (ix2 k j)) + b2 (ix2 0 j)) 0

def mlpOut {N D H1 H2 O : Nat} (E : Arr N D) (W1 : Arr D H1) (b1 : Arr 1 H1) (W2 : Arr H1 H2) (b2 : Arr 1 H2)
    (W3 : Arr H2 O) (b3 : Arr 1 O) (e : Fin N) (q : Fin O) : EReal :=
  (∑ k : Fin H2, mlpZ2 E W1 b1 W2 b2 e k * W3 (ix2 k q)) + b3 (ix2 0 q)

end Cert.Spec

end
-- ==== Proof.Br.Base.lean ====
import proofs.«431426_j58171037057327_1_alg».proof.Proof.KI.Run
import proofs.«431426_j58171037057327_1_alg».proof.Proof.Gen.ReferenceIdeal.Read
import proofs.«431426_j58171037057327_1_alg».proof.Proof.Spec
import proofs.«431426_j58171037057327_1_alg».proof.Proof.IdxPre

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)
abbrev a16 := m ((c.tc : Thread nD τ).loc main_arg16)
abbrev a17 := m ((c.tc : Thread nD τ).loc main_arg17)
abbrev a18 := m ((c.tc : Thread nD τ).loc main_arg18)

-- Every entry of the edge-index argument is a node number.
def Rng : Prop := ∀ j : S2x800000.Idx, (0 : Int) ≤ ((a1 m c : IVec S2x800000 32) j).toInt ∧ ((a1 m c : IVec S2x800000 32) j).toInt < 50000

end Cert.Bridge

end
-- ==== Proof.Br.SegA.lean ====
import proofs.«431426_j58171037057327_1_alg».proof.Proof.Br.Base
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

namespace Take

def wrap (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

def col (idx : IVec S800000 32) : IVec S800000x1 32 :=
  broadcastInDim S800000x1 ![0] bcast_S800000_S800000x1_0 (wrap idx)

def maskOf (cl : IVec S800000x1 32) : IVec S800000 1 :=
  Host.reduce IntOp.andi
    (andi (cmpi .sge cl (broadcastInDim S800000x1 ![] bcast_S_S800000x1 (constantI S_ 32 0#32)))
      (cmpi .sle cl (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def mask (idx : IVec S800000 32) : IVec S800000 1 := maskOf (col idx)

def InRange (idx : IVec S800000 32) : Prop := ∀ j : S800000.Idx, (0 : Int) ≤ (idx j).toInt ∧ (idx j).toInt < 50000

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, IntOp.andi_eq_one.2 ⟨rfl, rfl⟩]
    exact foldl_andi_one f hf l

theorem wrap_apply (idx : IVec S800000 32) (j : S800000.Idx) (h0 : (0 : Int) ≤ (idx j).toInt) (h1 : (idx j).toInt < 50000) :
    wrap idx j = idx j := by
  show Scalar.select (IntOp.cmpi .slt (idx j) 0#32) (IntOp.addi (idx j) 50000#32) (idx j) = idx j
  rw [Cert.IdxPre.slt_zero_of_range h0 h1]
  rfl

-- Every wrapped entry is the entry itself, which passes both tests.
theorem mask_eq_one (idx : IVec S800000 32) (h : InRange idx) : mask idx = fun _ => 1#1 := by
  funext j
  unfold mask maskOf
  rw [Host.reduce_eq_foldl]
  refine foldl_andi_one _ (fun i => ?_) _
  obtain ⟨k, hk⟩ : ∃ k, col idx i = wrap idx k := ⟨_, rfl⟩
  show IntOp.andi (IntOp.cmpi .sge (col idx i) 0#32) (IntOp.cmpi .sle (col idx i) 49999#32) = 1#1
  rw [hk, wrap_apply idx k (h k).1 (h k).2, Cert.IdxPre.sge_zero_of_range (h k).1 (h k).2, Cert.IdxPre.sle_max_of_range (h k).1 (h k).2]
  rfl

theorem guard_eq {S : Shape} {α : Type} (dims : Fin S800000.rank → Fin S.rank) (hb : S800000.BroadcastsInDim S dims)
    (idx : IVec S800000 32) (h : InRange idx) (g f : S.Idx → α) :
    select (broadcastInDim S dims hb (mask idx)) g f = g := by
  rw [mask_eq_one idx h]
  funext i
  exact select_one _ _

variable {F : FTy → Type} [FloatOps F]

def take64 (x : (⟨S50000x64, .f32⟩ : BufTy).Contents (Elt F)) (idx : (⟨S800000, .i32⟩ : BufTy).Contents (Elt F)) :
    (⟨S800000x64, .f32⟩ : BufTy).Contents (Elt F) :=
  select (broadcastInDim S800000x64 ![0] bcast_S800000_S800000x64_0 (mask idx))
    (Host.gather gather_S50000x64_S800000x1_S800000x64_1_0_n_n_0_1_164 x (col idx))
    (broadcastInDim S800000x64 ![] bcast_S_S800000x64 (constant S_ .f32 0x7FC00000#32))

theorem take64_eq (x : (⟨S50000x64, .f32⟩ : BufTy).Contents (Elt F)) (idx : IVec S800000 32) (h : InRange idx) :
    take64 x idx = Host.gather gather_S50000x64_S800000x1_S800000x64_1_0_n_n_0_1_164 x (col idx) :=
  guard_eq _ _ idx h _ _

end Take

theorem cast_row {α : Type} {n : Nat} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext i
  obtain ⟨u, q, rfl⟩ : ∃ u q, i = ix2 u q := ⟨i 0, i 1, eq_ix2 i⟩
  rw [shapeCast_a_1a_apply]
  refine (broadcastInDim_apply _ hb x _ (ix1 q) (fun a => ?_)).symm
  match a with
  | ⟨0, _⟩ =>
    show q.val = if n = 1 then 0 else q.val
    split
    · have := q.isLt; omega
    · rfl

section Reads
variable {F : FTy → Type} [FloatOps F]

section Chains
variable (m : (ℓ : Loc nD τ sig) → Buf (Elt F) ℓ) (o : Outs (F := F)) (c : Dev nD) (r : Ref sig .tc)

theorem V3_V0 (h3 : r ∉ hostOps0_2_W := by decide) (h2 : r ∉ hostOps0_1_W := by decide) (h1 : r ∉ hostOps0_W := by decide) :
    V3 m c r = V0 m c r :=
  (V3_of m c r h3).trans <| (V2_of m c r h2).trans (V1_of m c r h1)

theorem V7_V3 (h7 : r ∉ hostOps2_W := by decide) (h6 : r ∉ ([main_v34] : List (Ref sig .tc)) := by decide)
    (h5 : r ∉ hostOps1_W := by decide) (h4 : r ∉ ([main_v20] : List (Ref sig .tc)) := by decide) : V7 m o c r = V3 m c r :=
  (V7_of m o c r h7).trans <| (V6_of m o c r h6).trans <| (V5_of m o c r h5).trans (V4_of m o c r h4)

theorem V11_V7 (h11 : r ∉ ([main_v58] : List (Ref sig .tc)) := by decide) (h10 : r ∉ hostOps3_W := by decide)
    (h9 : r ∉ ([main_v44] : List (Ref sig .tc)) := by decide) (h8 : r ∉ hostOps2_1_W := by decide) : V11 m o c r = V7 m o c r :=
  (V11_of m o c r h11).trans <| (V10_of m o c r h10).trans <| (V9_of m o c r h9).trans (V8_of m o c r h8)

end Chains

def segA_cnt (d : IVec S800000 32) : FVec F S50000x1 .f32 :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))

variable (W : Valuation τ sig (Elt F))

theorem after_drop (n : Nat) (ops : List (HloOp τ sig (Elt F))) :
    StableHlo.after ops W = StableHlo.after (ops.drop n) (StableHlo.after (ops.take n) W) := by
  rw [← StableHlo.after_append, List.take_append_drop]

theorem segA_A_v5 : StableHlo.after (hostOps0_1.take 8) W main_call0_v5 = Take.col (W main_v1) := by
  show StableHlo.after [_, _, _, _, _, _, _, _] W main_call0_v5 = _
  after_results_simp
  simp only [StableHlo.TRef.ofBuf, StableHlo.TRef.toBuf, cast_eq, Take.col, Take.wrap]

theorem segA_A_arg0 : StableHlo.after (hostOps0_1.take 8) W main_arg0 = W main_arg0 := by
  show StableHlo.after [_, _, _, _, _, _, _, _] W main_arg0 = _
  after_results_simp

theorem segA_B_v12 : StableHlo.after ((hostOps0_1.drop 8).take 10) W main_call0_v12 = Take.maskOf (W main_call0_v5) := by
  show StableHlo.after [_, _, _, _, _, _, _, _, _, _] W main_call0_v12 = _
  after_results_simp
  simp only [StableHlo.TRef.ofBuf, StableHlo.TRef.toBuf, cast_eq, Take.maskOf]

theorem segA_B_v5 : StableHlo.after ((hostOps0_1.drop 8).take 10) W main_call0_v5 = W main_call0_v5 := by
  show StableHlo.after [_, _, _, _, _, _, _, _, _, _] W main_call0_v5 = _
  after_results_simp

theorem segA_B_arg0 : StableHlo.after ((hostOps0_1.drop 8).take 10) W main_arg0 = W main_arg0 := by
  show StableHlo.after [_, _, _, _, _, _, _, _, _, _] W main_arg0 = _
  after_results_simp

theorem segA_C_v4 : StableHlo.after ((hostOps0_1.drop 8).drop 10) W main_v4 =
    select (broadcastInDim S800000x128 ![0] bcast_S800000_S800000x128_0 (W main_call0_v12))
      (Host.gather gather_S50000x128_S800000x1_S800000x128_1_0_n_n_0_1_1128 (W main_arg0) (W main_call0_v5)) (broadcastInDim S800000x128 ![] bcast_S_S800000x128 (constant S_ .f32 0x7FC00000#32)) := by
  show StableHlo.after [_, _, _, _, _] W main_v4 = _
  after_results_simp
  simp only [StableHlo.TRef.ofBuf, StableHlo.TRef.toBuf, cast_eq]

theorem segA_read_v4 : StableHlo.after hostOps0_1 W main_v4 =
    select (broadcastInDim S800000x128 ![0] bcast_S800000_S800000x128_0 (Take.mask (W main_v1)))
      (Host.gather gather_S50000x128_S800000x1_S800000x128_1_0_n_n_0_1_1128 (W main_arg0) (Take.col (W main_v1))) (broadcastInDim S800000x128 ![] bcast_S_S800000x128 (constant S_ .f32 0x7FC00000#32)) := by
  rw [after_drop W 8 hostOps0_1, after_drop _ 10 (hostOps0_1.drop 8), segA_C_v4, segA_B_v12, segA_B_v5, segA_B_arg0,
    segA_A_v5, segA_A_arg0]
  rfl

theorem segA_read_v14 : StableHlo.after hostOps0_2 W main_v14 = segA_cnt (W main_v3) := by
  after_results_simp
  rfl

theorem segA_read_v16 : StableHlo.after hostOps0_2 W main_v16 =
    Host.divf
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 (W main_v3))
        (W main_v4))
      (broadcastInDim S50000x128 ![0, 1] bcast_S50000x1_S50000x128_0_1 (segA_cnt (W main_v3))) := by
  after_results_simp
  rfl

end Reads

variable (m : (ℓ : Loc nD τ sig) → Buf (Elt Ideal) ℓ) (c : Dev nD)

theorem range_v1 (h : Rng m c) : Take.InRange (val_main_v1 (F := Ideal) (a1 m c)) := fun j => by
  rw [val_main_v1_apply, val_main_v0_apply]; exact h _
theorem range_v3 (h : Rng m c) : Take.InRange (val_main_v3 (F := Ideal) (a1 m c)) := fun j => by
  rw [val_main_v3_apply, val_main_v2_apply]; exact h _

theorem segA_V1_v1 : V1 m c main_v1 = val_main_v1 (a1 m c) := by
  unfold val_main_v1 val_main_v0
  dsimp only [V1]
  after_results
  rfl
theorem segA_V1_v3 : V1 m c main_v3 = val_main_v3 (a1 m c) := by
  unfold val_main_v3 val_main_v2
  dsimp only [V1]
  after_results
  rfl
theorem segA_V2_v3 : V2 m c main_v3 = val_main_v3 (a1 m c) := by
  rw [V2_of m c main_v3 (by decide)]
  exact segA_V1_v3 m c

theorem segA_v1 : V3 m c main_v1 = val_main_v1 (a1 m c) := by
  rw [V3_of m c main_v1 (by decide), V2_of m c main_v1 (by decide)]
  exact segA_V1_v1 m c
theorem segA_v3 : V3 m c main_v3 = val_main_v3 (a1 m c) := by
  rw [V3_of m c main_v3 (by decide)]
  exact segA_V2_v3 m c
theorem segA_arg0 : V3 m c main_arg0 = a0 m c := V3_V0 m c main_arg0
theorem segA_v14 : V3 m c main_v14 = val_main_v73 (a1 m c) := by
  refine (segA_read_v14 (V2 m c)).trans ?_
  rw [segA_V2_v3]
  rfl
theorem segA_v16 (h : Rng m c) : V3 m c main_v16 = Cert.ReferenceIdeal.Read.val_main_v22 (a0 m c) (a1 m c) := by
  refine (segA_read_v16 (V2 m c)).trans ?_
  rw [show V2 m c main_v4 = _ from segA_read_v4 (V1 m c), segA_V2_v3, segA_V1_v1, V1_of m c main_arg0 (by decide),
    Take.guard_eq _ _ _ (range_v1 m c h)]
  rfl
theorem segA_v17 : V3 m c main_v17 = Cert.ReferenceIdeal.Read.val_main_v23 (a3 m c) := by
  unfold val_main_v23
  dsimp only [V3]
  after_results
theorem segA_v18 : V3 m c main_v18 = Cert.ReferenceIdeal.Read.val_main_v28 (a5 m c) := by
  unfold val_main_v28
  dsimp only [V3]
  after_results
theorem segA_v19 : V3 m c main_v19 = Cert.ReferenceIdeal.Read.val_main_v25 (a4 m c) := by
  refine Eq.trans ?_ (cast_row _ shapeCasts_S64_S1x64 _)
  dsimp only [V3]
  after_results
  rfl

end Cert.Bridge

end
-- ==== Proof.KI.VLib.lean ====
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«431426_j58171037057327_1_alg».proof.Proof.Spec

noncomputable section

namespace Cert.KernelIdeal.Hand.VLib

open Idealize.ShloMosaic Idealize.ShloMosaic.ValueIdx
open scoped BigOperators
open Cert.Spec

theorem hz : (![0, 0] : Fin 2 → Nat) = fun _ => 0 := funext fun a => by fin_cases a <;> rfl

-- A product into the zero accumulator is the contraction sum, re-indexed by the contracted coordinate.
theorem matmul_at {m k n : Nat} {φ₁ φ₂ : FTy} (x : FVec Ideal ⟨2, ![m, k]⟩ φ₁) (w : FVec Ideal ⟨2, ![k, n]⟩ φ₂) (r : Fin m) (q : Fin n) :
    matmul (DotDims.plain m k n) none x w (constant (F := Ideal) ⟨2, ![m, n]⟩ .f32 0x00000000#32) (ix2 r q)
      = ∑ c : Fin k, x (ix2 r c) * w (ix2 c q) :=
  (Ideal.matmul_constant_zero_apply _ none x w _).trans
    ((Ideal.dotGeneral_apply _ none _ x w _).symm.trans (StackMember.dotGeneral_plain_apply none x w r q))

-- The dense-layer entry reads row p of A and X, column q of the weights and entry q of the bias, and nothing else.
theorem sage_point {N M K H : Nat} (A X : Arr N K) (Wl Wr : Arr K H) (b : Arr 1 H) (x0 x1 : Arr M K) (x2 x3 : Arr K H) (x4 : Arr 1 H)
    (r : Fin M) (q : Fin H) (p : Fin N) (q' : Fin H) (hq : q' = q) (h0 : ∀ k, x0 (ix2 r k) = A (ix2 p k)) (h1 : ∀ k, x1 (ix2 r k) = X (ix2 p k))
    (h2 : ∀ k, x2 (ix2 k q) = Wl (ix2 k q)) (h3 : ∀ k, x3 (ix2 k q) = Wr (ix2 k q)) (h4 : x4 (ix2 0 q) = b (ix2 0 q)) :
    sageEntry x0 x1 x2 x3 x4 r q = sageEntry A X Wl Wr b p q' := by
  subst hq; simp only [sageEntry, h0, h1, h2, h3, h4]

-- The normalisation entry reads entry (p, q) of the features and entry q of the four parameter rows, and nothing else.
theorem bn_point {N M H : Nat} (h : Arr N H) (g be mu va : Arr 1 H) (x0 : Arr M H) (x1 x2 x3 x4 : Arr 1 H) (r : Fin M) (q : Fin H) (p : Fin N)
    (q' : Fin H) (hq : q' = q) (e0 : x0 (ix2 r q) = h (ix2 p q)) (e1 : x1 (ix2 0 q) = g (ix2 0 q)) (e2 : x2 (ix2 0 q) = be (ix2 0 q))
    (e3 : x3 (ix2 0 q) = mu (ix2 0 q)) (e4 : x4 (ix2 0 q) = va (ix2 0 q)) :
    bnEntry x0 x1 x2 x3 x4 r q = bnEntry h g be mu va p q' := by
  subst hq; simp only [bnEntry, e0, e1, e2, e3, e4]

theorem app_congr {n : Fin 2 → ℕ} {β : Type} (f : ((a : Fin 2) → Fin (n a)) → β) {x y : (a : Fin 2) → Fin (n a)}
    (h : ∀ a, (x a : ℕ) = y a) : f x = f y := congrArg f (funext fun a => Fin.ext (h a))

-- Row i of an array tiled by blocks of B rows is row i % B of block i / B.
theorem row_split (B i x : Nat) (hx : x = i / B) : x * B + 1 * (i % B) = i := by
  subst hx; rw [Nat.one_mul]; exact Nat.div_add_mod' i B

section
open Idealize.SL Idealize.SL.RA Idealize.ShloMosaic.Pipeline
variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

-- If every point's block is that block of G and the blocks together reach every index, the array ends as G.
theorem final_of_emb (w : Fin cfg.W) (G : Buf Val ((cfg.win w).arr.view.loc (c.tc : Thread nD τ)))
    (hG : ∀ t, dat.flushed w t = ((cfg.win w).blk t).view.read Val G) (hf : ∀ t, (cfg.win w).flush t = true)
    (hc : ∀ i : ((cfg.win w).arr.view.loc (c.tc : Thread nD τ)).2.ty.Idx, ∃ t y, ((cfg.win w).blk t).view.emb y = i) :
    dat.arrAt w cfg.N = G :=
  dat.arrAt_eq_of_cover w G (fun t _ => hG t) fun i =>
    let ⟨t, y, h⟩ := hc i; ⟨t, hf t, h ▸ ((cfg.win w).blk t).view.emb_mem_set y⟩
end

end Cert.KernelIdeal.Hand.VLib

end
-- ==== Proof.KI.V0.lean ====
import proofs.«431426_j58171037057327_1_alg».proof.Proof.KI.R0
import proofs.«431426_j58171037057327_1_alg».proof.Proof.KI.VLib

noncomputable section

namespace Cert.KernelIdeal.Hand

open Cert.KernelIdeal Cert.KernelIdeal.Gen
open Idealize.ShloMosaic Idealize.ShloMosaic.TcCoe Idealize.ShloMosaic.ValueIdx
open Cert.Spec

variable (V : (c : Dev nD) → (b : Ref sig .tc) → Buf (Elt Ideal) ((c : Thread nD τ).loc b))

namespace V0

theorem idx_facts : ∀ t : Fin cfg0.N, win0_5.index t (0 : Fin 2) = t.val ∧ win0_5.index t (1 : Fin 2) = 0
    ∧ win0_0.index t (0 : Fin 2) = t.val ∧ win0_0.index t (1 : Fin 2) = 0 ∧ win0_1.index t (0 : Fin 2) = t.val ∧ win0_1.index t (1 : Fin 2) = 0
    ∧ (∀ a : Fin 2, win0_2.index t a = 0) ∧ (∀ a : Fin 2, win0_3.index t a = 0) ∧ (∀ a : Fin 2, win0_4.index t a = 0) :=
  (by decide +kernel : ∀ t : Fin grid0.N, _)

theorem pay_at (x0 x1 : Vec Ideal S5000x128 .f32) (x2 x3 : Vec Ideal S128x64 .f32) (x4 : Vec Ideal S1x64 .f32) (r : Fin 5000) (q : Fin 64) :
    out0_5 x0 x1 x2 x3 x4 (ix2 r q) = sageEntry (N := 5000) (K := 128) (H := 64) x0 x1 x2 x3 x4 r q := by
  unfold out0_5 sageEntry
  rw [View.canon_unit_zero VLib.hz]
  simp only [View.ld_unit_zero (S := S5000x128) VLib.hz, View.ld_unit_zero (S := S128x64) VLib.hz, View.ld_unit_zero (S := S1x64) VLib.hz,
    k0_pay1, shapeCast_self, addf_apply, broadcastTo_1b_ab_apply]
  erw [VLib.matmul_at, VLib.matmul_at]
  simp only [truncf_apply]

abbrev G (c : Dev nD) : S50000x64.Idx → Elt Ideal .f32 := fun i =>
  sageEntry (N := 50000) (K := 128) (H := 64) (V c main_v16) (V c main_arg0) (V c main_v17) (V c main_v18) (V c main_v19) (i 0) (i 1)

-- Point t's block is rows t·5000 … of the two row-blocked operands and of the output, and the whole of the weights and the bias.
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  obtain ⟨a5, b5, a0, b0, a1, b1, z2, z3, z4⟩ := idx_facts t
  funext j
  obtain ⟨r, q, rfl⟩ : ∃ (r : Fin 5000) (q : Fin 64), j = ix2 r q := ⟨j 0, j 1, eq_ix2 j⟩
  refine (pay_at _ _ _ _ _ r q).trans (VLib.sage_point _ _ _ _ _ _ _ _ _ _ r q _ _ (Fin.ext (win0_5.rect_emb_val_of_index_zero t (1 : Fin 2) b5 _))
    (fun k => ?_) (fun k => ?_) (fun k => ?_) (fun k => ?_) ?_)
  · exact congrArg (V c main_v16) (Shape.idx_ext₂ (congrArg (· * 5000 + 1 * r.val) (a0.trans a5.symm)) (win0_0.rect_emb_val_of_index_zero t (1 : Fin 2) b0 _))
  · exact congrArg (V c main_arg0) (Shape.idx_ext₂ (congrArg (· * 5000 + 1 * r.val) (a1.trans a5.symm)) (win0_1.rect_emb_val_of_index_zero t (1 : Fin 2) b1 _))
  · exact VLib.app_congr (V c main_v17) fun a => win0_2.rect_emb_val_of_index_zero t a (z2 a) _
  · exact VLib.app_congr (V c main_v18) fun a => win0_3.rect_emb_val_of_index_zero t a (z3 a) _
  · exact VLib.app_congr (V c main_v19) fun a => win0_4.rect_emb_val_of_index_zero t a (z4 a) _

end V0

-- Row p of the output array is row p % 5000 of the block of point p / 5000.
theorem value0 (c : Dev nD) (p : Fin 50000) (q : Fin 64) :
    (dat0 (F := Ideal) V c).arrAt 5 cfg0.N (ix2 p q)
      = sageEntry (N := 50000) (K := 128) (H := 64) (V c main_v16) (V c main_arg0) (V c main_v17) (V c main_v18) (V c main_v19) p q := by
  refine congrFun (VLib.final_of_emb (dat0 (F := Ideal) V c) 5 (V0.G V c) (V0.flushed_eq V c) flush0_5 fun i => ?_) (ix2 p q)
  have h0 : (i 0).val < 50000 := (i 0).isLt
  obtain ⟨t, ht⟩ : ∃ t : Fin cfg0.N, t.val = (i 0).val / 5000 := ⟨⟨_, Nat.lt_of_lt_of_eq (by omega) N_0.symm⟩, rfl⟩
  exact ⟨t, ix2 ⟨(i 0).val % 5000, Nat.mod_lt _ (by decide)⟩ (i 1), Shape.idx_ext₂
    (VLib.row_split 5000 _ _ ((V0.idx_facts t).1.trans ht)) (win0_5.rect_emb_val_of_index_zero t (1 : Fin 2) (V0.idx_facts t).2.1 _)⟩

end Cert.KernelIdeal.Hand

end
-- ==== Proof.Br.Reg0.lean ====
import proofs.«431426_j58171037057327_1_alg».proof.Proof.Br.SegA
import proofs.«431426_j58171037057327_1_alg».proof.Proof.KI.V0

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

-- Entry by entry the two products plus the bias is the product plus bias plus product: addition of extended reals is commutative and associative.
theorem reg0_entry (A X : Arr 50000 128) (Wl Wr : Arr 128 64) (b : Arr 1 64) (p : Fin 50000) (q : Fin 64)
    (hA : A = val_main_v22 (a0 m c) (a1 m c)) (hX : X = a0 m c) (hWl : Wl = val_main_v23 (a3 m c))
    (hWr : Wr = val_main_v28 (a5 m c)) (hb : b = val_main_v25 (a4 m c)) :
    sageEntry A X Wl Wr b p q = val_main_v30 (a0 m c) (a1 m c) (a3 m c) (a4 m c) (a5 m c) (ix2 p q) := by
  subst hA hX hWl hWr hb
  rw [val_main_v30_apply, val_main_v27_apply, val_main_v24_apply, val_main_v29_apply, val_main_v26_apply]
  simp only [show ∀ k : Fin 128, lidx_main_v24 (ix2 p q) k = ix2 p k from fun _ => eq_ix2 _,
    show ∀ k : Fin 128, ridx_main_v24 (ix2 p q) k = ix2 k q from fun _ => eq_ix2 _,
    show ∀ k : Fin 128, lidx_main_v29 (ix2 p q) k = ix2 p k from fun _ => eq_ix2 _,
    show ∀ k : Fin 128, ridx_main_v29 (ix2 p q) k = ix2 k q from fun _ => eq_ix2 _,
    show idx_main_v26 (ix2 p q) = ix2 (0 : Fin 1) q from eq_ix2 _, Ideal.addf_def]
  unfold sageEntry
  exact add_right_comm _ _ _

theorem reg0 (h : Rng m c) : outs m 4 main_v20 c = val_main_v30 (a0 m c) (a1 m c) (a3 m c) (a4 m c) (a5 m c) := by
  funext i
  obtain ⟨p, q, rfl⟩ : ∃ (p : Fin 50000) (q : Fin 64), i = ix2 p q := ⟨i 0, i 1, eq_ix2 i⟩
  exact (congrFun (outs_4 m c) _).trans ((value0 (at3 m) c p q).trans (reg0_entry m c _ _ _ _ _ p q (segA_v16 m c h) (segA_arg0 m c) (segA_v17 m c) (segA_v18 m c) (segA_v19 m c)))

end Cert.Bridge

end
-- ==== Proof.Br.SegB.lean ====
import proofs.«431426_j58171037057327_1_alg».proof.Proof.Br.Base
import Idealize.ShloMosaic.Lib.Pipeline.Value
import Idealize.ShloMosaic.Lib.ValueLayout
import Idealize.ShloMosaic.Lib.ValueIdx

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

-- A vector reshaped to one row and the vector broadcast along a new leading unit axis hold the same entry at every place.
theorem row_eq {α : Type} {n : ℕ} (x : (⟨1, ![n]⟩ : Shape).Idx → α)
    (hs : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hs = broadcastInDim ⟨2, ![1, n]⟩ ![1] hb x := by
  funext j
  obtain ⟨u, i, rfl⟩ : ∃ (u : Fin 1) (i : Fin n), j = ix2 u i := ⟨j 0, j 1, eq_ix2 j⟩
  rw [shapeCast_a_1a_apply x hs u i]
  refine (broadcastInDim_apply _ hb x _ _ fun a => ?_).symm
  match a with
  | ⟨0, _⟩ =>
    show i.val = if n = 1 then 0 else i.val
    split <;> omega

variable (m : (ℓ : Loc nD τ sig) → Buf (Elt Ideal) ℓ) (c : Dev nD)

theorem segB_v32 : V5 m (outs m) c main_v32 = val_main_v44 (a6 m c) := by
  show StableHlo.after hostOps1 (V4 m (outs m) c) main_v32 = _
  after_results
  rw [V4_of m (outs m) c main_arg6 (by decide), V3_of m c main_arg6 (by decide), V2_of m c main_arg6 (by decide), V1_of m c main_arg6 (by decide)]
  exact row_eq _ _ _

theorem segB_v33 : V5 m (outs m) c main_v33 = val_main_v53 (a7 m c) := by
  show StableHlo.after hostOps1 (V4 m (outs m) c) main_v33 = _
  after_results
  rw [V4_of m (outs m) c main_arg7 (by decide), V3_of m c main_arg7 (by decide), V2_of m c main_arg7 (by decide), V1_of m c main_arg7 (by decide)]
  exact row_eq _ _ _

variable (h20 : outs m 4 main_v20 c = val_main_v30 (a0 m c) (a1 m c) (a3 m c) (a4 m c) (a5 m c))
include h20

theorem segB_in : V4 m (outs m) c (Proc.tc.devRef main_v20) = val_main_v30 (a0 m c) (a1 m c) (a3 m c) (a4 m c) (a5 m c) :=
  (Function.update_self ..).trans h20

theorem segB_v20 : V5 m (outs m) c main_v20 = val_main_v30 (a0 m c) (a1 m c) (a3 m c) (a4 m c) (a5 m c) := by
  rw [V5_of m (outs m) c main_v20 (by decide)]
  exact segB_in m c h20

theorem segB_v24 : V5 m (outs m) c main_v24 = val_main_v34 (a0 m c) (a1 m c) (a3 m c) (a4 m c) (a5 m c) := by
  show StableHlo.after hostOps1 (V4 m (outs m) c) main_v24 = _
  after_results
  rw [segB_in m c h20]
  exact row_eq _ _ _

-- The stretch squares the deviations from a mean row made by a reshape, the reference from one made by a broadcast: the same row.
theorem segB_v31 : V5 m (outs m) c main_v31 = shapeCast S1x64 (val_main_v40 (a0 m c) (a1 m c) (a3 m c) (a4 m c) (a5 m c)) shapeCasts_S64_S1x64 := by
  show StableHlo.after hostOps1 (V4 m (outs m) c) main_v31 = _
  after_results
  rw [segB_in m c h20]
  refine congrArg (fun z => shapeCast S1x64 z shapeCasts_S64_S1x64) ?_
  show Host.divf (Host.reduceAdd (mulf (subf _ (broadcastInDim _ _ _ (shapeCast S1x64 (val_main_v33 (a0 m c) (a1 m c) (a3 m c) (a4 m c) (a5 m c)) shapeCasts_S64_S1x64)))
    (subf _ (broadcastInDim _ _ _ (shapeCast S1x64 (val_main_v33 (a0 m c) (a1 m c) (a3 m c) (a4 m c) (a5 m c)) shapeCasts_S64_S1x64)))) _ _ _) _ = _
  rw [row_eq (val_main_v33 (a0 m c) (a1 m c) (a3 m c) (a4 m c) (a5 m c)) shapeCasts_S64_S1x64 Cert.ReferenceIdeal.Gen.bcast_S64_S1x64_1]
  rfl

end Cert.Bridge

end
-- ==== Proof.KI.V1.lean ====
import proofs.«431426_j58171037057327_1_alg».proof.Proof.KI.R1
import proofs.«431426_j58171037057327_1_alg».proof.Proof.KI.VLib

noncomputable section

namespace Cert.KernelIdeal.Hand

open Cert.KernelIdeal Cert.KernelIdeal.Gen
open Idealize.ShloMosaic Idealize.ShloMosaic.TcCoe Idealize.ShloMosaic.ValueIdx
open Cert.Spec

variable (V : (c : Dev nD) → (b : Ref sig .tc) → Buf (Elt Ideal) ((c : Thread nD τ).loc b))

namespace V1

theorem idx_facts : ∀ t : Fin cfg1.N, win1_5.index t (0 : Fin 2) = t.val ∧ win1_5.index t (1 : Fin 2) = 0
    ∧ win1_0.index t (0 : Fin 2) = t.val ∧ win1_0.index t (1 : Fin 2) = 0 ∧ (∀ a : Fin 2, win1_1.index t a = 0)
    ∧ (∀ a : Fin 2, win1_2.index t a = 0) ∧ (∀ a : Fin 2, win1_3.index t a = 0) ∧ (∀ a : Fin 2, win1_4.index t a = 0) :=
  (by decide +kernel : ∀ t : Fin grid1.N, _)

theorem pay_at (x0 : Vec Ideal S5000x64 .f32) (x1 x2 x3 x4 : Vec Ideal S1x64 .f32) (r : Fin 5000) (q : Fin 64) :
    out1_5 x0 x1 x2 x3 x4 (ix2 r q) = bnEntry (N := 5000) (H := 64) x0 x1 x2 x3 x4 r q := by
  unfold out1_5 bnEntry
  rw [View.canon_unit_zero VLib.hz]
  simp only [View.ld_unit_zero (S := S5000x64) VLib.hz, View.ld_unit_zero (S := S1x64) VLib.hz, k1_pay1, shapeCast_self,
    maximumf_apply, addf_apply, mulf_apply, subf_apply, broadcast_apply, broadcastTo_1b_ab_apply]
  rw [Ideal.ofBits_def, Ideal.ofBits_def, Ideal.ofBits_zero_f32]
  rfl

abbrev G (c : Dev nD) : S50000x64.Idx → Elt Ideal .f32 := fun i =>
  bnEntry (N := 50000) (H := 64) (V c main_v20) (V c main_v32) (V c main_v33) (V c main_v24) (V c main_v31) (i 0) (i 1)

-- Point t's block is rows t·5000 … of the features and of the output, and the whole of each parameter row.
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  obtain ⟨a5, b5, a0, b0, z1, z2, z3, z4⟩ := idx_facts t
  funext j
  obtain ⟨r, q, rfl⟩ : ∃ (r : Fin 5000) (q : Fin 64), j = ix2 r q := ⟨j 0, j 1, eq_ix2 j⟩
  refine (pay_at _ _ _ _ _ r q).trans (VLib.bn_point _ _ _ _ _ _ _ _ _ _ r q _ _ (Fin.ext (win1_5.rect_emb_val_of_index_zero t (1 : Fin 2) b5 _)) ?_ ?_ ?_ ?_ ?_)
  · exact congrArg (V c main_v20) (Shape.idx_ext₂ (congrArg (· * 5000 + 1 * r.val) (a0.trans a5.symm)) (win1_0.rect_emb_val_of_index_zero t (1 : Fin 2) b0 _))
  · exact VLib.app_congr (V c main_v32) fun a => win1_1.rect_emb_val_of_index_zero t a (z1 a) _
  · exact VLib.app_congr (V c main_v33) fun a => win1_2.rect_emb_val_of_index_zero t a (z2 a) _
  · exact VLib.app_congr (V c main_v24) fun a => win1_3.rect_emb_val_of_index_zero t a (z3 a) _
  · exact VLib.app_congr (V c main_v31) fun a => win1_4.rect_emb_val_of_index_zero t a (z4 a) _

end V1

-- Row p of the output array is row p % 5000 of the block of point p / 5000.
theorem value1 (c : Dev nD) (p : Fin 50000) (q : Fin 64) :
    (dat1 (F := Ideal) V c).arrAt 5 cfg1.N (ix2 p q)
      = bnEntry (N := 50000) (H := 64) (V c main_v20) (V c main_v32) (V c main_v33) (V c main_v24) (V c main_v31) p q := by
  refine congrFun (VLib.final_of_emb (dat1 (F := Ideal) V c) 5 (V1.G V c) (V1.flushed_eq V c) flush1_5 fun i => ?_) (ix2 p q)
  have h0 : (i 0).val < 50000 := (i 0).isLt
  obtain ⟨t, ht⟩ : ∃ t : Fin cfg1.N, t.val = (i 0).val / 5000 := ⟨⟨_, Nat.lt_of_lt_of_eq (by omega) N_1.symm⟩, rfl⟩
  exact ⟨t, ix2 ⟨(i 0).val % 5000, Nat.mod_lt _ (by decide)⟩ (i 1), Shape.idx_ext₂
    (VLib.row_split 5000 _ _ ((V1.idx_facts t).1.trans ht)) (win1_5.rect_emb_val_of_index_zero t (1 : Fin 2) (V1.idx_facts t).2.1 _)⟩

end Cert.KernelIdeal.Hand

end
-- ==== Proof.Br.Norm.lean ====
import Idealize.ShloMosaic.PureOps.Ideal.Laws

noncomputable section

namespace Cert.Bridge.Norm

open Idealize.ShloMosaic
open scoped BigOperators

theorem eps_real : ∃ e : ℝ, 0 < e ∧ Ideal.ofBits .f32 0x3727C5AC#32 = (e : EReal) :=
  ⟨10995116 * ((2 : ℝ) ^ 40)⁻¹, by positivity, by simp [Ideal.ofBits, Ideal.ieee]⟩

theorem count_real : ∃ n : ℝ, 0 < n ∧ Ideal.ofBits .f32 0x47435000#32 = (n : EReal) :=
  ⟨12800000 * ((2 : ℝ) ^ 8)⁻¹, by positivity, by simp [Ideal.ofBits, Ideal.ieee]⟩

theorem mul_self_nonneg (x : EReal) : 0 ≤ x * x :=
  EReal.mul_nonneg_iff.mpr ((le_total 0 x).imp (fun h => ⟨h, h⟩) fun h => ⟨h, h⟩)

-- A mean of non-negative terms is not negative: the count is a positive real.
theorem mean_nonneg {ι : Type} (s : Finset ι) (g : ι → EReal) (hg : ∀ k, 0 ≤ g k) :
    0 ≤ Ideal.div (Ideal.ofBits .f32 0x00000000#32 + ∑ k ∈ s, g k) (Ideal.ofBits .f32 0x47435000#32) := by
  obtain ⟨n, hn, hc⟩ := count_real
  rw [hc, Ideal.div_coe hn.ne', Ideal.ofBits_zero_f32, zero_add]
  exact EReal.mul_nonneg (Finset.sum_nonneg fun k _ => hg k) (by exact_mod_cast (one_div_pos.2 hn).le)

-- The sum of a non-negative variance and the positive ε is a positive real or ⊤; there the reciprocal square root is the inverse of the square root.
theorem mul_rsqrt_eq_div (a v : EReal) (hv : 0 ≤ v) {e : ℝ} (he : 0 < e) :
    a * Ideal.rsqrt (v + (e : EReal)) = Ideal.div a (Ideal.sqrt (v + (e : EReal))) := by
  induction v using EReal.rec with
  | bot => exact absurd hv (by simp)
  | top =>
    rw [EReal.top_add_coe, Ideal.rsqrt_top, Ideal.sqrt_top]
    unfold Ideal.div
    rw [if_neg (by simp), EReal.inv_top]
  | coe r =>
    have hr : 0 ≤ r := by exact_mod_cast hv
    have hpos : 0 < r + e := by linarith
    rw [← EReal.coe_add, Ideal.rsqrt_coe, Ideal.sqrt_coe, if_neg (not_lt.mpr hpos.le), if_neg hpos.ne',
      if_neg (not_lt.mpr hpos.le)]
    unfold Ideal.div
    rw [if_neg (by exact_mod_cast (Real.sqrt_pos.mpr hpos).ne'), EReal.coe_inv]

theorem entry_eq (g h mu be v : EReal) (hv : 0 ≤ v) :
    max (((g * (h - mu)) * Ideal.rsqrt (v + Ideal.ofBits .f32 0x3727C5AC#32)) + be) 0
      = max (Ideal.div (g * (h - mu)) (Ideal.sqrt (v + Ideal.ofBits .f32 0x3727C5AC#32)) + be)
          (Ideal.ofBits .f32 0x00000000#32) := by
  obtain ⟨e, he, hε⟩ := eps_real
  rw [hε, mul_rsqrt_eq_div _ _ hv he, Ideal.ofBits_zero_f32]

end Cert.Bridge.Norm

end
-- ==== Proof.Br.Reg1.lean ====
import proofs.«431426_j58171037057327_1_alg».proof.Proof.Br.SegB
import proofs.«431426_j58171037057327_1_alg».proof.Proof.KI.V1
import proofs.«431426_j58171037057327_1_alg».proof.Proof.Br.Norm

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

-- The variance is a mean of squares, so it is not negative; there the product with the reciprocal square root is the quotient by the square root.
theorem reg1_entry (hh : Arr 50000 64) (gg bb mm vv : Arr 1 64) (p : Fin 50000) (q : Fin 64)
    (eh : hh = val_main_v30 (a0 m c) (a1 m c) (a3 m c) (a4 m c) (a5 m c)) (eg : gg = val_main_v44 (a6 m c)) (eb : bb = val_main_v53 (a7 m c))
    (em : mm = val_main_v34 (a0 m c) (a1 m c) (a3 m c) (a4 m c) (a5 m c)) (ev : vv = shapeCast S1x64 (val_main_v40 (a0 m c) (a1 m c) (a3 m c) (a4 m c) (a5 m c)) shapeCasts_S64_S1x64) :
    bnEntry hh gg bb mm vv p q = val_main_v56 (a0 m c) (a1 m c) (a3 m c) (a4 m c) (a5 m c) (a6 m c) (a7 m c) (ix2 p q) := by
  subst eh eg eb em ev
  rw [val_main_v56_apply, val_main_v55_apply, val_main_v52_apply, val_main_v46_apply, val_main_v45_apply, val_main_v43_apply, val_main_v42_apply, val_main_v51_apply, val_main_v50_apply, val_main_v49_apply, val_main_v48_apply, val_main_v47_apply, val_main_cst_8_apply, val_main_v54_apply, val_main_call0_v0_apply, val_main_call0_cst_apply,
    show idx_main_v45 (ix2 p q) = ix2 0 q from eq_ix2 _, show idx_main_v42 (ix2 p q) = ix2 0 q from eq_ix2 _,
    show idx_main_v54 (ix2 p q) = ix2 0 q from eq_ix2 _, show idx_main_v50 (idx_main_v51 (ix2 p q)) = ix1 q from eq_ix1 _,
    show val_main_v41 (a0 m c) (a1 m c) (a3 m c) (a4 m c) (a5 m c) = val_main_v34 (a0 m c) (a1 m c) (a3 m c) (a4 m c) (a5 m c) from rfl]
  unfold bnEntry
  rw [shapeCast_a_1a_apply]
  refine Norm.entry_eq _ _ _ _ _ ?_
  rw [val_main_v40_apply, val_main_v38_apply, val_main_v39_apply, val_main_cst_7_apply, val_main_cst_6_apply,
    Ideal.hostDivf_def, Ideal.ofBits_def, Ideal.ofBits_def]
  refine Norm.mean_nonneg _ _ fun k => ?_
  rw [val_main_v37_apply]
  exact Norm.mul_self_nonneg _

theorem reg1 (h20 : outs m 4 main_v20 c = val_main_v30 (a0 m c) (a1 m c) (a3 m c) (a4 m c) (a5 m c)) : outs m 6 main_v34 c = val_main_v56 (a0 m c) (a1 m c) (a3 m c) (a4 m c) (a5 m c) (a6 m c) (a7 m c) := by
  refine (outs_6 m c).trans ?_
  funext i
  obtain ⟨p, q, rfl⟩ : ∃ (p : Fin 50000) (q : Fin 64), i = ix2 p q := ⟨i 0, i 1, eq_ix2 i⟩
  exact (value1 (at5 m) c p q).trans (reg1_entry m c _ _ _ _ _ p q (segB_v20 m c h20) (segB_v32 m c) (segB_v33 m c) (segB_v24 m c h20) (segB_v31 m c h20))

end Cert.Bridge

end
-- ==== Proof.Br.SegC.lean ====
import proofs.«431426_j58171037057327_1_alg».proof.Proof.Br.SegA

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators
open Idealize.ShloMosaic.StableHlo

section Generic
variable {F : FTy → Type} [FloatOps F]

def segC_mean (t : (⟨S800000x64, .f32⟩ : BufTy).Contents (Elt F)) (v3 : (⟨S800000, .i32⟩ : BufTy).Contents (Elt F))
    (v14 : (⟨S50000x1, .f32⟩ : BufTy).Contents (Elt F)) : (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 v3) t)
    (broadcastInDim S50000x64 ![0, 1] bcast_S50000x1_S50000x64_0_1 v14)

variable (W : Valuation τ sig (Elt F))

theorem segC_A_v5 : StableHlo.after (hostOps2.take 8) W main_call1_v5 = Take.col (W main_v1) := by
  show StableHlo.after [_, _, _, _, _, _, _, _] W main_call1_v5 = _
  after_results_simp
  simp only [TRef.ofBuf, TRef.toBuf, cast_eq, Take.col, Take.wrap]

theorem segC_A_v34 : StableHlo.after (hostOps2.take 8) W main_v34 = W main_v34 := by
  show StableHlo.after [_, _, _, _, _, _, _, _] W main_v34 = _
  after_results_simp

theorem segC_B_v12 : StableHlo.after ((hostOps2.drop 8).take 10) W main_call1_v12 = Take.maskOf (W main_call1_v5) := by
  show StableHlo.after [_, _, _, _, _, _, _, _, _, _] W main_call1_v12 = _
  after_results_simp
  simp only [TRef.ofBuf, TRef.toBuf, cast_eq, Take.maskOf]

theorem segC_B_v5 : StableHlo.after ((hostOps2.drop 8).take 10) W main_call1_v5 = W main_call1_v5 := by
  show StableHlo.after [_, _, _, _, _, _, _, _, _, _] W main_call1_v5 = _
  after_results_simp

theorem segC_B_v34 : StableHlo.after ((hostOps2.drop 8).take 10) W main_v34 = W main_v34 := by
  show StableHlo.after [_, _, _, _, _, _, _, _, _, _] W main_v34 = _
  after_results_simp

theorem segC_C_v35 : StableHlo.after ((hostOps2.drop 8).drop 10) W main_v35 =
    select (broadcastInDim S800000x64 ![0] bcast_S800000_S800000x64_0 (W main_call1_v12))
      (Host.gather gather_S50000x64_S800000x1_S800000x64_1_0_n_n_0_1_164 (W main_v34) (W main_call1_v5)) (broadcastInDim S800000x64 ![] bcast_S_S800000x64 (constant S_ .f32 0x7FC00000#32)) := by
  show StableHlo.after [_, _, _, _, _] W main_v35 = _
  after_results_simp
  simp only [TRef.ofBuf, TRef.toBuf, cast_eq]

theorem segC_read_v35 : StableHlo.after hostOps2 W main_v35 = Take.take64 (W main_v34) (W main_v1) := by
  rw [after_drop W 8 hostOps2, after_drop _ 10 (hostOps2.drop 8), segC_C_v35, segC_B_v12, segC_B_v5, segC_B_v34,
    segC_A_v5, segC_A_v34]
  rfl

theorem segC_read_v40 : StableHlo.after hostOps2_1 W main_v40 = segC_mean (W main_v35) (W main_v3) (W main_v14) := by
  after_results
  rfl

end Generic

variable (m : (ℓ : Loc nD τ sig) → Buf (Elt Ideal) ℓ) (c : Dev nD)

variable (h34 : outs m 6 main_v34 c = Cert.ReferenceIdeal.Read.val_main_v56 (a0 m c) (a1 m c) (a3 m c) (a4 m c) (a5 m c) (a6 m c) (a7 m c))
include h34
theorem segC_v34 : V8 m (outs m) c main_v34 = Cert.ReferenceIdeal.Read.val_main_v56 (a0 m c) (a1 m c) (a3 m c) (a4 m c) (a5 m c) (a6 m c) (a7 m c) := by
  rw [V8_of m (outs m) c main_v34 (by decide), V7_of m (outs m) c main_v34 (by decide)]
  exact (Function.update_self ..).trans h34
theorem segC_v40 (h : Rng m c) : V8 m (outs m) c main_v40 = Cert.ReferenceIdeal.Read.val_main_v75 (a0 m c) (a1 m c) (a3 m c) (a4 m c) (a5 m c) (a6 m c) (a7 m c) := by
  refine (segC_read_v40 (V7 m (outs m) c)).trans ?_
  rw [show V7 m (outs m) c main_v35 = _ from segC_read_v35 (V6 m (outs m) c),
    show V6 m (outs m) c main_v34 = outs m 6 main_v34 c from Function.update_self .., h34,
    V6_of m (outs m) c main_v1 (by decide), V5_of m (outs m) c main_v1 (by decide), V4_of m (outs m) c main_v1 (by decide),
    V7_V3 m (outs m) c main_v3, V7_V3 m (outs m) c main_v14, segA_v1 m c, segA_v3 m c, segA_v14 m c,
    Take.take64_eq _ _ (range_v1 m c h)]
  rfl
omit h34
theorem segC_v41 : V8 m (outs m) c main_v41 = Cert.ReferenceIdeal.Read.val_main_v76 (a8 m c) := by
  rw [← show V7 m (outs m) c main_arg8 = a8 m c from (V7_V3 m (outs m) c main_arg8).trans (V3_V0 m c main_arg8)]
  unfold val_main_v76
  show StableHlo.after hostOps2_1 (V7 m (outs m) c) main_v41 = _
  generalize V7 m (outs m) c = W
  after_results
theorem segC_v42 : V8 m (outs m) c main_v42 = Cert.ReferenceIdeal.Read.val_main_v81 (a10 m c) := by
  rw [← show V7 m (outs m) c main_arg10 = a10 m c from (V7_V3 m (outs m) c main_arg10).trans (V3_V0 m c main_arg10)]
  unfold val_main_v81
  show StableHlo.after hostOps2_1 (V7 m (outs m) c) main_v42 = _
  generalize V7 m (outs m) c = W
  after_results
theorem segC_v43 : V8 m (outs m) c main_v43 = Cert.ReferenceIdeal.Read.val_main_v78 (a9 m c) := by
  refine Eq.trans ?_ (cast_row _ shapeCasts_S64_S1x64 _)
  rw [← show V7 m (outs m) c main_arg9 = a9 m c from (V7_V3 m (outs m) c main_arg9).trans (V3_V0 m c main_arg9)]
  show StableHlo.after hostOps2_1 (V7 m (outs m) c) main_v43 = _
  generalize V7 m (outs m) c = W
  after_results
  rfl

end Cert.Bridge

end
-- ==== Proof.KI.V2.lean ====
import proofs.«431426_j58171037057327_1_alg».proof.Proof.KI.R2
import proofs.«431426_j58171037057327_1_alg».proof.Proof.KI.VLib

noncomputable section

namespace Cert.KernelIdeal.Hand

open Cert.KernelIdeal Cert.KernelIdeal.Gen
open Idealize.ShloMosaic Idealize.ShloMosaic.TcCoe Idealize.ShloMosaic.ValueIdx
open Cert.Spec

variable (V : (c : Dev nD) → (b : Ref sig .tc) → Buf (Elt Ideal) ((c : Thread nD τ).loc b))

namespace V2

theorem idx_facts : ∀ t : Fin cfg2.N, win2_5.index t (0 : Fin 2) = t.val ∧ win2_5.index t (1 : Fin 2) = 0
    ∧ win2_0.index t (0 : Fin 2) = t.val ∧ win2_0.index t (1 : Fin 2) = 0 ∧ win2_1.index t (0 : Fin 2) = t.val ∧ win2_1.index t (1 : Fin 2) = 0
    ∧ (∀ a : Fin 2, win2_2.index t a = 0) ∧ (∀ a : Fin 2, win2_3.index t a = 0) ∧ (∀ a : Fin 2, win2_4.index t a = 0) :=
  (by decide +kernel : ∀ t : Fin grid2.N, _)

theorem pay_at (x0 x1 : Vec Ideal S5000x64 .f32) (x2 x3 : Vec Ideal S64x64 .f32) (x4 : Vec Ideal S1x64 .f32) (r : Fin 5000) (q : Fin 64) :
    out2_5 x0 x1 x2 x3 x4 (ix2 r q) = sageEntry (N := 5000) (K := 64) (H := 64) x0 x1 x2 x3 x4 r q := by
  unfold out2_5 sageEntry
  rw [View.canon_unit_zero VLib.hz]
  simp only [View.ld_unit_zero (S := S5000x64) VLib.hz, View.ld_unit_zero (S := S64x64) VLib.hz, View.ld_unit_zero (S := S1x64) VLib.hz,
    k2_pay1, shapeCast_self, addf_apply, broadcastTo_1b_ab_apply]
  erw [VLib.matmul_at, VLib.matmul_at]
  simp only [truncf_apply]

abbrev G (c : Dev nD) : S50000x64.Idx → Elt Ideal .f32 := fun i =>
  sageEntry (N := 50000) (K := 64) (H := 64) (V c main_v40) (V c main_v34) (V c main_v41) (V c main_v42) (V c main_v43) (i 0) (i 1)

-- Point t's block is rows t·5000 … of the two row-blocked operands and of the output, and the whole of the weights and the bias.
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  obtain ⟨a5, b5, a0, b0, a1, b1, z2, z3, z4⟩ := idx_facts t
  funext j
  obtain ⟨r, q, rfl⟩ : ∃ (r : Fin 5000) (q : Fin 64), j = ix2 r q := ⟨j 0, j 1, eq_ix2 j⟩
  refine (pay_at _ _ _ _ _ r q).trans (VLib.sage_point _ _ _ _ _ _ _ _ _ _ r q _ _ (Fin.ext (win2_5.rect_emb_val_of_index_zero t (1 : Fin 2) b5 _))
    (fun k => ?_) (fun k => ?_) (fun k => ?_) (fun k => ?_) ?_)
  · exact congrArg (V c main_v40) (Shape.idx_ext₂ (congrArg (· * 5000 + 1 * r.val) (a0.trans a5.symm)) (win2_0.rect_emb_val_of_index_zero t (1 : Fin 2) b0 _))
  · exact congrArg (V c main_v34) (Shape.idx_ext₂ (congrArg (· * 5000 + 1 * r.val) (a1.trans a5.symm)) (win2_1.rect_emb_val_of_index_zero t (1 : Fin 2) b1 _))
  · exact VLib.app_congr (V c main_v41) fun a => win2_2.rect_emb_val_of_index_zero t a (z2 a) _
  · exact VLib.app_congr (V c main_v42) fun a => win2_3.rect_emb_val_of_index_zero t a (z3 a) _
  · exact VLib.app_congr (V c main_v43) fun a => win2_4.rect_emb_val_of_index_zero t a (z4 a) _

end V2

-- Row p of the output array is row p % 5000 of the block of point p / 5000.
theorem value2 (c : Dev nD) (p : Fin 50000) (q : Fin 64) :
    (dat2 (F := Ideal) V c).arrAt 5 cfg2.N (ix2 p q)
      = sageEntry (N := 50000) (K := 64) (H := 64) (V c main_v40) (V c main_v34) (V c main_v41) (V c main_v42) (V c main_v43) p q := by
  refine congrFun (VLib.final_of_emb (dat2 (F := Ideal) V c) 5 (V2.G V c) (V2.flushed_eq V c) flush2_5 fun i => ?_) (ix2 p q)
  have h0 : (i 0).val < 50000 := (i 0).isLt
  obtain ⟨t, ht⟩ : ∃ t : Fin cfg2.N, t.val = (i 0).val / 5000 := ⟨⟨_, Nat.lt_of_lt_of_eq (by omega) N_2.symm⟩, rfl⟩
  exact ⟨t, ix2 ⟨(i 0).val % 5000, Nat.mod_lt _ (by decide)⟩ (i 1), Shape.idx_ext₂
    (VLib.row_split 5000 _ _ ((V2.idx_facts t).1.trans ht)) (win2_5.rect_emb_val_of_index_zero t (1 : Fin 2) (V2.idx_facts t).2.1 _)⟩

end Cert.KernelIdeal.Hand

end
-- ==== Proof.Br.Reg2.lean ====
import proofs.«431426_j58171037057327_1_alg».proof.Proof.Br.SegC
import proofs.«431426_j58171037057327_1_alg».proof.Proof.KI.V2

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

-- Entry by entry the two products plus the bias is the product plus bias plus product: addition of extended reals is commutative and associative.
theorem reg2_entry (A X : Arr 50000 64) (Wl Wr : Arr 64 64) (b : Arr 1 64) (p : Fin 50000) (q : Fin 64)
    (hA : A = val_main_v75 (a0 m c) (a1 m c) (a3 m c) (a4 m c) (a5 m c) (a6 m c) (a7 m c)) (hX : X = val_main_v56 (a0 m c) (a1 m c) (a3 m c) (a4 m c) (a5 m c) (a6 m c) (a7 m c)) (hWl : Wl = val_main_v76 (a8 m c))
    (hWr : Wr = val_main_v81 (a10 m c)) (hb : b = val_main_v78 (a9 m c)) :
    sageEntry A X Wl Wr b p q = val_main_v83 (a0 m c) (a1 m c) (a3 m c) (a4 m c) (a5 m c) (a6 m c) (a7 m c) (a8 m c) (a9 m c) (a10 m c) (ix2 p q) := by
  subst hA hX hWl hWr hb
  rw [val_main_v83_apply, val_main_v80_apply, val_main_v77_apply, val_main_v82_apply, val_main_v79_apply]
  simp only [show ∀ k : Fin 64, lidx_main_v77 (ix2 p q) k = ix2 p k from fun _ => eq_ix2 _,
    show ∀ k : Fin 64, ridx_main_v77 (ix2 p q) k = ix2 k q from fun _ => eq_ix2 _,
    show ∀ k : Fin 64, lidx_main_v82 (ix2 p q) k = ix2 p k from fun _ => eq_ix2 _,
    show ∀ k : Fin 64, ridx_main_v82 (ix2 p q) k = ix2 k q from fun _ => eq_ix2 _,
    show idx_main_v79 (ix2 p q) = ix2 (0 : Fin 1) q from eq_ix2 _, Ideal.addf_def]
  unfold sageEntry
  exact add_right_comm _ _ _

theorem reg2 (h : Rng m c) (h34 : outs m 6 main_v34 c = val_main_v56 (a0 m c) (a1 m c) (a3 m c) (a4 m c) (a5 m c) (a6 m c) (a7 m c)) : outs m 9 main_v44 c = val_main_v83 (a0 m c) (a1 m c) (a3 m c) (a4 m c) (a5 m c) (a6 m c) (a7 m c) (a8 m c) (a9 m c) (a10 m c) := by
  funext i
  obtain ⟨p, q, rfl⟩ : ∃ (p : Fin 50000) (q : Fin 64), i = ix2 p q := ⟨i 0, i 1, eq_ix2 i⟩
  exact (congrFun (outs_9 m c) _).trans ((value2 (at8 m) c p q).trans (reg2_entry m c _ _ _ _ _ p q (segC_v40 m c h34 h) (segC_v34 m c h34) (segC_v41 m c) (segC_v42 m c) (segC_v43 m c)))

end Cert.Bridge

end
-- ==== Proof.Br.SegD.lean ====
import proofs.«431426_j58171037057327_1_alg».proof.Proof.Br.SegB

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

theorem segD_v56 : V10 m (outs m) c main_v56 = val_main_v97 (a11 m c) := by
  show StableHlo.after hostOps3 (V9 m (outs m) c) main_v56 = _
  after_results
  rw [V9_of m (outs m) c main_arg11 (by decide), V8_of m (outs m) c main_arg11 (by decide), V7_of m (outs m) c main_arg11 (by decide), V6_of m (outs m) c main_arg11 (by decide),
    V5_of m (outs m) c main_arg11 (by decide), V4_of m (outs m) c main_arg11 (by decide), V3_of m c main_arg11 (by decide), V2_of m c main_arg11 (by decide), V1_of m c main_arg11 (by decide)]
  exact row_eq _ _ _

theorem segD_v57 : V10 m (outs m) c main_v57 = val_main_v106 (a12 m c) := by
  show StableHlo.after hostOps3 (V9 m (outs m) c) main_v57 = _
  after_results
  rw [V9_of m (outs m) c main_arg12 (by decide), V8_of m (outs m) c main_arg12 (by decide), V7_of m (outs m) c main_arg12 (by decide), V6_of m (outs m) c main_arg12 (by decide),
    V5_of m (outs m) c main_arg12 (by decide), V4_of m (outs m) c main_arg12 (by decide), V3_of m c main_arg12 (by decide), V2_of m c main_arg12 (by decide), V1_of m c main_arg12 (by decide)]
  exact row_eq _ _ _

variable (h44 : outs m 9 main_v44 c = val_main_v83 (a0 m c) (a1 m c) (a3 m c) (a4 m c) (a5 m c) (a6 m c) (a7 m c) (a8 m c) (a9 m c) (a10 m c))
include h44

theorem segD_in : V9 m (outs m) c (Proc.tc.devRef main_v44) = val_main_v83 (a0 m c) (a1 m c) (a3 m c) (a4 m c) (a5 m c) (a6 m c) (a7 m c) (a8 m c) (a9 m c) (a10 m c) :=
  (Function.update_self ..).trans h44

theorem segD_v44 : V10 m (outs m) c main_v44 = val_main_v83 (a0 m c) (a1 m c) (a3 m c) (a4 m c) (a5 m c) (a6 m c) (a7 m c) (a8 m c) (a9 m c) (a10 m c) := by
  rw [V10_of m (outs m) c main_v44 (by decide)]
  exact segD_in m c h44

theorem segD_v48 : V10 m (outs m) c main_v48 = val_main_v87 (a0 m c) (a1 m c) (a3 m c) (a4 m c) (a5 m c) (a6 m c) (a7 m c) (a8 m c) (a9 m c) (a10 m c) := by
  show StableHlo.after hostOps3 (V9 m (outs m) c) main_v48 = _
  after_results
  rw [segD_in m c h44]
  exact row_eq _ _ _

theorem segD_v55 : V10 m (outs m) c main_v55 = shapeCast S1x64 (val_main_v93 (a0 m c) (a1 m c) (a3 m c) (a4 m c) (a5 m c) (a6 m c) (a7 m c) (a8 m c) (a9 m c) (a10 m c)) shapeCasts_S64_S1x64 := by
  show StableHlo.after hostOps3 (V9 m (outs m) c) main_v55 = _
  after_results
  rw [segD_in m c h44]
  refine congrArg (fun z => shapeCast S1x64 z shapeCasts_S64_S1x64) ?_
  show Host.divf (Host.reduceAdd (mulf (subf _ (broadcastInDim _ _ _ (shapeCast S1x64 (val_main_v86 (a0 m c) (a1 m c) (a3 m c) (a4 m c) (a5 m c) (a6 m c) (a7 m c) (a8 m c) (a9 m c) (a10 m c)) shapeCasts_S64_S1x64)))
    (subf _ (broadcastInDim _ _ _ (shapeCast S1x64 (val_main_v86 (a0 m c) (a1 m c) (a3 m c) (a4 m c) (a5 m c) (a6 m c) (a7 m c) (a8 m c) (a9 m c) (a10 m c)) shapeCasts_S64_S1x64)))) _ _ _) _ = _
  rw [row_eq (val_main_v86 (a0 m c) (a1 m c) (a3 m c) (a4 m c) (a5 m c) (a6 m c) (a7 m c) (a8 m c) (a9 m c) (a10 m c)) shapeCasts_S64_S1x64 Cert.ReferenceIdeal.Gen.bcast_S64_S1x64_1]
  rfl

end Cert.Bridge

end
-- ==== Proof.KI.V3.lean ====
import proofs.«431426_j58171037057327_1_alg».proof.Proof.KI.R3
import proofs.«431426_j58171037057327_1_alg».proof.Proof.KI.VLib

noncomputable section

namespace Cert.KernelIdeal.Hand

open Cert.KernelIdeal Cert.KernelIdeal.Gen
open Idealize.ShloMosaic Idealize.ShloMosaic.TcCoe Idealize.ShloMosaic.ValueIdx
open Cert.Spec

variable (V : (c : Dev nD) → (b : Ref sig .tc) → Buf (Elt Ideal) ((c : Thread nD τ).loc b))

namespace V3

theorem idx_facts : ∀ t : Fin cfg3.N, win3_5.index t (0 : Fin 2) = t.val ∧ win3_5.index t (1 : Fin 2) = 0
    ∧ win3_0.index t (0 : Fin 2) = t.val ∧ win3_0.index t (1 : Fin 2) = 0 ∧ (∀ a : Fin 2, win3_1.index t a = 0)
    ∧ (∀ a : Fin 2, win3_2.index t a = 0) ∧ (∀ a : Fin 2, win3_3.index t a = 0) ∧ (∀ a : Fin 2, win3_4.index t a = 0) :=
  (by decide +kernel : ∀ t : Fin grid3.N, _)

theorem pay_at (x0 : Vec Ideal S5000x64 .f32) (x1 x2 x3 x4 : Vec Ideal S1x64 .f32) (r : Fin 5000) (q : Fin 64) :
    out3_5 x0 x1 x2 x3 x4 (ix2 r q) = bnEntry (N := 5000) (H := 64) x0 x1 x2 x3 x4 r q := by
  unfold out3_5 bnEntry
  rw [View.canon_unit_zero VLib.hz]
  simp only [View.ld_unit_zero (S := S5000x64) VLib.hz, View.ld_unit_zero (S := S1x64) VLib.hz, k3_pay1, shapeCast_self,
    maximumf_apply, addf_apply, mulf_apply, subf_apply, broadcast_apply, broadcastTo_1b_ab_apply]
  rw [Ideal.ofBits_def, Ideal.ofBits_def, Ideal.ofBits_zero_f32]
  rfl

abbrev G (c : Dev nD) : S50000x64.Idx → Elt Ideal .f32 := fun i =>
  bnEntry (N := 50000) (H := 64) (V c main_v44) (V c main_v56) (V c main_v57) (V c main_v48) (V c main_v55) (i 0) (i 1)

-- Point t's block is rows t·5000 … of the features and of the output, and the whole of each parameter row.
theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  obtain ⟨a5, b5, a0, b0, z1, z2, z3, z4⟩ := idx_facts t
  funext j
  obtain ⟨r, q, rfl⟩ : ∃ (r : Fin 5000) (q : Fin 64), j = ix2 r q := ⟨j 0, j 1, eq_ix2 j⟩
  refine (pay_at _ _ _ _ _ r q).trans (VLib.bn_point _ _ _ _ _ _ _ _ _ _ r q _ _ (Fin.ext (win3_5.rect_emb_val_of_index_zero t (1 : Fin 2) b5 _)) ?_ ?_ ?_ ?_ ?_)
  · exact congrArg (V c main_v44) (Shape.idx_ext₂ (congrArg (· * 5000 + 1 * r.val) (a0.trans a5.symm)) (win3_0.rect_emb_val_of_index_zero t (1 : Fin 2) b0 _))
  · exact VLib.app_congr (V c main_v56) fun a => win3_1.rect_emb_val_of_index_zero t a (z1 a) _
  · exact VLib.app_congr (V c main_v57) fun a => win3_2.rect_emb_val_of_index_zero t a (z2 a) _
  · exact VLib.app_congr (V c main_v48) fun a => win3_3.rect_emb_val_of_index_zero t a (z3 a) _
  · exact VLib.app_congr (V c main_v55) fun a => win3_4.rect_emb_val_of_index_zero t a (z4 a) _

end V3

-- Row p of the output array is row p % 5000 of the block of point p / 5000.
theorem value3 (c : Dev nD) (p : Fin 50000) (q : Fin 64) :
    (dat3 (F := Ideal) V c).arrAt 5 cfg3.N (ix2 p q)
      = bnEntry (N := 50000) (H := 64) (V c main_v44) (V c main_v56) (V c main_v57) (V c main_v48) (V c main_v55) p q := by
  refine congrFun (VLib.final_of_emb (dat3 (F := Ideal) V c) 5 (V3.G V c) (V3.flushed_eq V c) flush3_5 fun i => ?_) (ix2 p q)
  have h0 : (i 0).val < 50000 := (i 0).isLt
  obtain ⟨t, ht⟩ : ∃ t : Fin cfg3.N, t.val = (i 0).val / 5000 := ⟨⟨_, Nat.lt_of_lt_of_eq (by omega) N_3.symm⟩, rfl⟩
  exact ⟨t, ix2 ⟨(i 0).val % 5000, Nat.mod_lt _ (by decide)⟩ (i 1), Shape.idx_ext₂
    (VLib.row_split 5000 _ _ ((V3.idx_facts t).1.trans ht)) (win3_5.rect_emb_val_of_index_zero t (1 : Fin 2) (V3.idx_facts t).2.1 _)⟩

end Cert.KernelIdeal.Hand

end
-- ==== Proof.Br.Reg3.lean ====
import proofs.«431426_j58171037057327_1_alg».proof.Proof.Br.SegD
import proofs.«431426_j58171037057327_1_alg».proof.Proof.KI.V3
import proofs.«431426_j58171037057327_1_alg».proof.Proof.Br.Norm

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

-- The variance is a mean of squares, so it is not negative; there the product with the reciprocal square root is the quotient by the square root.
theorem reg3_entry (hh : Arr 50000 64) (gg bb mm vv : Arr 1 64) (p : Fin 50000) (q : Fin 64)
    (eh : hh = val_main_v83 (a0 m c) (a1 m c) (a3 m c) (a4 m c) (a5 m c) (a6 m c) (a7 m c) (a8 m c) (a9 m c) (a10 m c)) (eg : gg = val_main_v97 (a11 m c)) (eb : bb = val_main_v106 (a12 m c))
    (em : mm = val_main_v87 (a0 m c) (a1 m c) (a3 m c) (a4 m c) (a5 m c) (a6 m c) (a7 m c) (a8 m c) (a9 m c) (a10 m c)) (ev : vv = shapeCast S1x64 (val_main_v93 (a0 m c) (a1 m c) (a3 m c) (a4 m c) (a5 m c) (a6 m c) (a7 m c) (a8 m c) (a9 m c) (a10 m c)) shapeCasts_S64_S1x64) :
    bnEntry hh gg bb mm vv p q = val_main_v109 (a0 m c) (a1 m c) (a3 m c) (a4 m c) (a5 m c) (a6 m c) (a7 m c) (a8 m c) (a9 m c) (a10 m c) (a11 m c) (a12 m c) (ix2 p q) := by
  subst eh eg eb em ev
  rw [val_main_v109_apply, val_main_v108_apply, val_main_v105_apply, val_main_v99_apply, val_main_v98_apply, val_main_v96_apply, val_main_v95_apply, val_main_v104_apply, val_main_v103_apply, val_main_v102_apply, val_main_v101_apply, val_main_v100_apply, val_main_cst_19_apply, val_main_v107_apply, val_main_call1_v0_apply, val_main_call1_cst_apply,
    show idx_main_v98 (ix2 p q) = ix2 0 q from eq_ix2 _, show idx_main_v95 (ix2 p q) = ix2 0 q from eq_ix2 _,
    show idx_main_v107 (ix2 p q) = ix2 0 q from eq_ix2 _, show idx_main_v103 (idx_main_v104 (ix2 p q)) = ix1 q from eq_ix1 _,
    show val_main_v94 (a0 m c) (a1 m c) (a3 m c) (a4 m c) (a5 m c) (a6 m c) (a7 m c) (a8 m c) (a9 m c) (a10 m c) = val_main_v87 (a0 m c) (a1 m c) (a3 m c) (a4 m c) (a5 m c) (a6 m c) (a7 m c) (a8 m c) (a9 m c) (a10 m c) from rfl]
  unfold bnEntry
  rw [shapeCast_a_1a_apply]
  refine Norm.entry_eq _ _ _ _ _ ?_
  rw [val_main_v93_apply, val_main_v91_apply, val_main_v92_apply, val_main_cst_18_apply, val_main_cst_17_apply,
    Ideal.hostDivf_def, Ideal.ofBits_def, Ideal.ofBits_def]
  refine Norm.mean_nonneg _ _ fun k => ?_
  rw [val_main_v90_apply]
  exact Norm.mul_self_nonneg _

theorem reg3 (h44 : outs m 9 main_v44 c = val_main_v83 (a0 m c) (a1 m c) (a3 m c) (a4 m c) (a5 m c) (a6 m c) (a7 m c) (a8 m c) (a9 m c) (a10 m c)) : outs m 11 main_v58 c = val_main_v109 (a0 m c) (a1 m c) (a3 m c) (a4 m c) (a5 m c) (a6 m c) (a7 m c) (a8 m c) (a9 m c) (a10 m c) (a11 m c) (a12 m c) := by
  refine (outs_11 m c).trans ?_
  funext i
  obtain ⟨p, q, rfl⟩ : ∃ (p : Fin 50000) (q : Fin 64), i = ix2 p q := ⟨i 0, i 1, eq_ix2 i⟩
  exact (value3 (at10 m) c p q).trans (reg3_entry m c _ _ _ _ _ p q (segD_v44 m c h44) (segD_v56 m c) (segD_v57 m c) (segD_v48 m c h44) (segD_v55 m c h44))

end Cert.Bridge

end
-- ==== Proof.Br.SegE.lean ====
import proofs.«431426_j58171037057327_1_alg».proof.Proof.Br.SegA
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

section Reads
variable {F : FTy → Type} [FloatOps F] (W : Valuation τ sig (Elt F))

theorem segE_sA_v5 : StableHlo.after (hostOps4.take 8) W main_call2_v5 = Take.col (W main_v1) := by
  show StableHlo.after [_, _, _, _, _, _, _, _] W main_call2_v5 = _
  after_results_simp
  simp only [StableHlo.TRef.ofBuf, StableHlo.TRef.toBuf, cast_eq, Take.col, Take.wrap]

theorem segE_sA_v58 : StableHlo.after (hostOps4.take 8) W main_v58 = W main_v58 := by
  show StableHlo.after [_, _, _, _, _, _, _, _] W main_v58 = _
  after_results_simp

theorem segE_sB_v12 : StableHlo.after ((hostOps4.drop 8).take 10) W main_call2_v12 = Take.maskOf (W main_call2_v5) := by
  show StableHlo.after [_, _, _, _, _, _, _, _, _, _] W main_call2_v12 = _
  after_results_simp
  simp only [StableHlo.TRef.ofBuf, StableHlo.TRef.toBuf, cast_eq, Take.maskOf]

theorem segE_sB_v5 : StableHlo.after ((hostOps4.drop 8).take 10) W main_call2_v5 = W main_call2_v5 := by
  show StableHlo.after [_, _, _, _, _, _, _, _, _, _] W main_call2_v5 = _
  after_results_simp

theorem segE_sB_v58 : StableHlo.after ((hostOps4.drop 8).take 10) W main_v58 = W main_v58 := by
  show StableHlo.after [_, _, _, _, _, _, _, _, _, _] W main_v58 = _
  after_results_simp

theorem segE_sC : StableHlo.after ((hostOps4.drop 8).drop 10) W main_v59 =
    select (broadcastInDim S800000x64 ![0] bcast_S800000_S800000x64_0 (W main_call2_v12))
      (Host.gather gather_S50000x64_S800000x1_S800000x64_1_0_n_n_0_1_164 (W main_v58) (W main_call2_v5)) (broadcastInDim S800000x64 ![] bcast_S_S800000x64 (constant S_ .f32 0x7FC00000#32)) := by
  show StableHlo.after [_, _, _, _, _] W main_v59 = _
  after_results_simp
  simp only [StableHlo.TRef.ofBuf, StableHlo.TRef.toBuf, cast_eq]

theorem segE_read_v59 : StableHlo.after hostOps4 W main_v59 = Take.take64 (W main_v58) (W main_v1) := by
  rw [after_drop W 8 hostOps4, after_drop _ 10 (hostOps4.drop 8), segE_sC, segE_sB_v12, segE_sB_v5, segE_sB_v58,
    segE_sA_v5, segE_sA_v58]
  rfl

theorem segE_dA_v5 : StableHlo.after (hostOps4_1.take 8) W main_call3_v5 = Take.col (W main_v3) := by
  show StableHlo.after [_, _, _, _, _, _, _, _] W main_call3_v5 = _
  after_results_simp
  simp only [StableHlo.TRef.ofBuf, StableHlo.TRef.toBuf, cast_eq, Take.col, Take.wrap]

theorem segE_dA_v58 : StableHlo.after (hostOps4_1.take 8) W main_v58 = W main_v58 := by
  show StableHlo.after [_, _, _, _, _, _, _, _] W main_v58 = _
  after_results_simp

theorem segE_dB_v12 : StableHlo.after ((hostOps4_1.drop 8).take 10) W main_call3_v12 = Take.maskOf (W main_call3_v5) := by
  show StableHlo.after [_, _, _, _, _, _, _, _, _, _] W main_call3_v12 = _
  after_results_simp
  simp only [StableHlo.TRef.ofBuf, StableHlo.TRef.toBuf, cast_eq, Take.maskOf]

theorem segE_dB_v5 : StableHlo.after ((hostOps4_1.drop 8).take 10) W main_call3_v5 = W main_call3_v5 := by
  show StableHlo.after [_, _, _, _, _, _, _, _, _, _] W main_call3_v5 = _
  after_results_simp

theorem segE_dB_v58 : StableHlo.after ((hostOps4_1.drop 8).take 10) W main_v58 = W main_v58 := by
  show StableHlo.after [_, _, _, _, _, _, _, _, _, _] W main_v58 = _
  after_results_simp

theorem segE_dC : StableHlo.after ((hostOps4_1.drop 8).drop 10) W main_v60 =
    select (broadcastInDim S800000x64 ![0] bcast_S800000_S800000x64_0 (W main_call3_v12))
      (Host.gather gather_S50000x64_S800000x1_S800000x64_1_0_n_n_0_1_164 (W main_v58) (W main_call3_v5)) (broadcastInDim S800000x64 ![] bcast_S_S800000x64 (constant S_ .f32 0x7FC00000#32)) := by
  show StableHlo.after [_, _, _, _, _] W main_v60 = _
  after_results_simp
  simp only [StableHlo.TRef.ofBuf, StableHlo.TRef.toBuf, cast_eq]

theorem segE_read_v60 : StableHlo.after hostOps4_1 W main_v60 = Take.take64 (W main_v58) (W main_v3) := by
  rw [after_drop W 8 hostOps4_1, after_drop _ 10 (hostOps4_1.drop 8), segE_dC, segE_dB_v12, segE_dB_v5, segE_dB_v58,
    segE_dA_v5, segE_dA_v58]
  rfl

theorem segE_read_v61 : StableHlo.after hostOps4_2 W main_v61
    = concatenate S800000x144 1 [⟨S800000x64, W main_v59⟩, ⟨S800000x16, W main_arg2⟩, ⟨S800000x64, W main_v60⟩]
        concatenates_S800000x64_S800000x16_S800000x64_S800000x144_d1 := by
  after_results
  rfl

theorem segE_read_v67 : StableHlo.after hostOps4_3 W main_v67
    = pad S64x128 ![0, 0] ![0, 126] ![0, 0] (W main_v66) (sitofp (F := F) .f32 (W main_c)) pads_S64x2_S64x128_000_01260 h_S_ := by
  after_results
  simp only [StableHlo.TRef.ofBuf, StableHlo.TRef.toBuf, cast_eq] <;> rfl

theorem segE_read_v68 : StableHlo.after hostOps4_5 W main_v68
    = pad S128 ![0] ![126] ![0] (W main_arg18) (sitofp (F := F) .f32 (W main_c_12)) pads_S2_S128_01260 h_S_ := by
  after_results
  simp only [StableHlo.TRef.ofBuf, StableHlo.TRef.toBuf, cast_eq] <;> rfl

end Reads

section Reads2
variable {F : FTy → Type} [FloatOps F] (W : Valuation τ sig (Elt F))

theorem segE_read_v62 : StableHlo.after hostOps4_2 W main_v62 = val_main_v125 (W main_arg13) := by
  unfold val_main_v125
  after_results
theorem segE_read_v63 : StableHlo.after hostOps4_2 W main_v63 = shapeCast S1x128 (W main_arg14) shapeCasts_S128_S1x128 := by
  after_results
  rfl
theorem segE_read_v64 : StableHlo.after hostOps4_2 W main_v64 = val_main_v131 (W main_arg15) := by
  unfold val_main_v131
  after_results
theorem segE_read_v65 : StableHlo.after hostOps4_2 W main_v65 = shapeCast S1x64 (W main_arg16) shapeCasts_S64_S1x64 := by
  after_results
  rfl
theorem segE_read_v66 : StableHlo.after hostOps4_2 W main_v66 = val_main_v137 (W main_arg17) := by
  unfold val_main_v137
  after_results
theorem segE_read_c : StableHlo.after hostOps4_2 W main_c = constantI S_ 32 0#32 := by
  after_results
theorem segE_read_c12 : StableHlo.after hostOps4_4 W main_c_12 = constantI S_ 32 0#32 := by
  after_results
theorem segE_read_v69 : StableHlo.after hostOps4_6 W main_v69 = shapeCast S1x128 (W main_v68) shapeCasts_S128_S1x128 := by
  after_results
  rfl

end Reads2

theorem segE_sitofp_zero (i : S_.Idx) : (sitofp (F := Ideal) .f32 (constantI S_ 32 0#32)) i = (0 : EReal) := by
  show (((0#32 : BitVec 32).toInt : ℝ) : EReal) = 0
  rw [Cert.IdxPre.toInt_zero32]; simp

variable (m : (ℓ : Loc nD τ sig) → Buf (Elt Ideal) ℓ) (c : Dev nD)

theorem segE_arg (r : Ref sig .tc) (h13 : r ∉ hostOps4_1_W := by decide) (h12 : r ∉ hostOps4_W := by decide)
    (h11 : r ∉ ([main_v58] : List (Ref sig .tc)) := by decide) (h10 : r ∉ hostOps3_W := by decide)
    (h9 : r ∉ ([main_v44] : List (Ref sig .tc)) := by decide) (h8 : r ∉ hostOps2_1_W := by decide)
    (h7 : r ∉ hostOps2_W := by decide) (h6 : r ∉ ([main_v34] : List (Ref sig .tc)) := by decide)
    (h5 : r ∉ hostOps1_W := by decide) (h4 : r ∉ ([main_v20] : List (Ref sig .tc)) := by decide)
    (h3 : r ∉ hostOps0_2_W := by decide) (h2 : r ∉ hostOps0_1_W := by decide) (h1 : r ∉ hostOps0_W := by decide) :
    V13 m (outs m) c r = V0 m c r :=
  (V13_of m (outs m) c r h13).trans <| (V12_of m (outs m) c r h12).trans <| (V11_V7 m (outs m) c r h11 h10 h9 h8).trans <|
  (V7_V3 m (outs m) c r h7 h6 h5 h4).trans (V3_V0 m c r h3 h2 h1)

theorem segE_V18_V14 (r : Ref sig .tc) (h18 : r ∉ hostOps4_6_W := by decide) (h17 : r ∉ hostOps4_5_W := by decide)
    (h16 : r ∉ hostOps4_4_W := by decide) (h15 : r ∉ hostOps4_3_W := by decide) : V18 m (outs m) c r = V14 m (outs m) c r :=
  (V18_of m (outs m) c r h18).trans <| (V17_of m (outs m) c r h17).trans <| (V16_of m (outs m) c r h16).trans (V15_of m (outs m) c r h15)

variable (h58 : outs m 11 main_v58 c = Cert.ReferenceIdeal.Read.val_main_v109 (a0 m c) (a1 m c) (a3 m c) (a4 m c) (a5 m c) (a6 m c) (a7 m c) (a8 m c) (a9 m c) (a10 m c) (a11 m c) (a12 m c))
include h58
theorem segE_v61 (h : Rng m c) : V18 m (outs m) c main_v61 = Cert.ReferenceIdeal.Read.val_main_v124 (a0 m c) (a1 m c) (a2 m c) (a3 m c) (a4 m c) (a5 m c) (a6 m c) (a7 m c) (a8 m c) (a9 m c) (a10 m c) (a11 m c) (a12 m c) := by
  rw [segE_V18_V14 m c main_v61, show V14 m (outs m) c main_v61 = _ from segE_read_v61 (V13 m (outs m) c),
    V13_of m (outs m) c main_v59 (by decide), show V12 m (outs m) c main_v59 = _ from segE_read_v59 (V11 m (outs m) c),
    show V13 m (outs m) c main_v60 = _ from segE_read_v60 (V12 m (outs m) c),
    V12_of m (outs m) c main_v58 (by decide), V12_of m (outs m) c main_v3 (by decide),
    show V11 m (outs m) c main_v58 = outs m 11 main_v58 c from Function.update_self .., h58,
    V11_V7 m (outs m) c main_v1, V7_V3 m (outs m) c main_v1, V11_V7 m (outs m) c main_v3, V7_V3 m (outs m) c main_v3,
    segE_arg m c main_arg2, segA_v1 m c, segA_v3 m c,
    Take.take64_eq _ _ (range_v1 m c h), Take.take64_eq _ _ (range_v3 m c h)]
  rfl
omit h58
theorem segE_v62 : V18 m (outs m) c main_v62 = Cert.ReferenceIdeal.Read.val_main_v125 (a13 m c) :=
  (segE_V18_V14 m c main_v62).trans <| (segE_read_v62 (V13 m (outs m) c)).trans (congrArg _ (segE_arg m c main_arg13))
theorem segE_v63 : V18 m (outs m) c main_v63 = Cert.ReferenceIdeal.Read.val_main_v127 (a14 m c) :=
  (segE_V18_V14 m c main_v63).trans <| (segE_read_v63 (V13 m (outs m) c)).trans <|
    (congrArg (shapeCast S1x128 · shapeCasts_S128_S1x128) (segE_arg m c main_arg14)).trans (cast_row _ _ _)
theorem segE_v64 : V18 m (outs m) c main_v64 = Cert.ReferenceIdeal.Read.val_main_v131 (a15 m c) :=
  (segE_V18_V14 m c main_v64).trans <| (segE_read_v64 (V13 m (outs m) c)).trans (congrArg _ (segE_arg m c main_arg15))
theorem segE_v65 : V18 m (outs m) c main_v65 = Cert.ReferenceIdeal.Read.val_main_v133 (a16 m c) :=
  (segE_V18_V14 m c main_v65).trans <| (segE_read_v65 (V13 m (outs m) c)).trans <|
    (congrArg (shapeCast S1x64 · shapeCasts_S64_S1x64) (segE_arg m c main_arg16)).trans (cast_row _ _ _)
theorem segE_v67 (k : Fin 64) (q : Fin 128) : (V18 m (outs m) c main_v67 : Arr 64 128) (ix2 k q)
    = if hq : q.val < 2 then (Cert.ReferenceIdeal.Read.val_main_v137 (a17 m c) : Arr 64 2) (ix2 k ⟨q.val, hq⟩) else 0 := by
  rw [V18_of m (outs m) c main_v67 (by decide), V17_of m (outs m) c main_v67 (by decide), V16_of m (outs m) c main_v67 (by decide),
    show V15 m (outs m) c main_v67 = _ from segE_read_v67 (V14 m (outs m) c),
    show V14 m (outs m) c main_v66 = _ from segE_read_v66 (V13 m (outs m) c),
    show V14 m (outs m) c main_c = _ from segE_read_c (V13 m (outs m) c), segE_arg m c main_arg17]
  split
  · next hq =>
    exact pad_apply_of_inside _ _ _ _ _ _ _ (ix2 k q) (ix2 k ⟨q.val, hq⟩) (fun a => match a with
      | ⟨0, _⟩ => by show k.val = 0 + k.val * (0 + 1); omega
      | ⟨1, _⟩ => by show q.val = 0 + q.val * (0 + 1); omega)
  · next hq =>
    exact (pad_apply_of_not_inside _ _ _ _ _ _ _ (ix2 k q) 1 (fun hin => hq (by
      have := hin.2.2
      change (q.val - 0) / 1 < 2 at this
      omega))).trans (segE_sitofp_zero _)
theorem segE_v69 (q : Fin 128) : (V18 m (outs m) c main_v69 : Arr 1 128) (ix2 0 q)
    = (if hq : q.val < 2 then ((a18 m c : FVec Ideal S2 .f32) : (⟨1, ![2]⟩ : Shape).Idx → EReal) (ix1 ⟨q.val, hq⟩) else 0 : EReal) := by
  rw [show V18 m (outs m) c main_v69 = _ from segE_read_v69 (V17 m (outs m) c),
    show V17 m (outs m) c main_v68 = _ from segE_read_v68 (V16 m (outs m) c),
    show V16 m (outs m) c main_c_12 = _ from segE_read_c12 (V15 m (outs m) c),
    V16_of m (outs m) c main_arg18 (by decide), V15_of m (outs m) c main_arg18 (by decide), V14_of m (outs m) c main_arg18 (by decide),
    segE_arg m c main_arg18, shapeCast_a_1a_apply]
  split
  · next hq =>
    exact pad_apply_of_inside _ _ _ _ _ _ _ (ix1 q) (ix1 ⟨q.val, hq⟩) (fun a => match a with
      | ⟨0, _⟩ => by show q.val = 0 + q.val * (0 + 1); omega)
  · next hq =>
    exact (pad_apply_of_not_inside _ _ _ _ _ _ _ (ix1 q) 0 (fun hin => hq (by
      have := hin.2.2
      change (q.val - 0) / 1 < 2 at this
      omega))).trans (segE_sitofp_zero _)

end Cert.Bridge

end
-- ==== Proof.KI.V4.lean ====
import proofs.«431426_j58171037057327_1_alg».proof.Proof.KI.R4
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«431426_j58171037057327_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators
open Cert.Spec

namespace V4

-- A matrix product into a zero accumulator, read at an entry, is the sum over the inner index.
theorem mm_apply {m k n : Nat} {φ₁ φ₂ : FTy} (d : DotDims ⟨2, ![m, k]⟩ ⟨2, ![k, n]⟩ ⟨2, ![m, n]⟩) (hd : d = DotDims.plain m k n)
    (x : FVec Ideal ⟨2, ![m, k]⟩ φ₁) (w : FVec Ideal ⟨2, ![k, n]⟩ φ₂) (r : Fin m) (j : Fin n) :
    matmul d none x w (constant (F := Ideal) _ .f32 0x00000000#32) (ix2 r j) = ∑ c : Fin k, x (ix2 r c) * w (ix2 c j) := by
  subst hd
  exact (congrFun (matmul_zero_eq_dotGeneral _ none x w) _).trans (StackMember.dotGeneral_plain_apply none x w r j)

-- The stored value at entry (r, q) is the network's third layer at row e of any array of edge features whose row e is the block's row r.
theorem pay_eq_mlpOut (x0 : Vec Ideal S4000x144 .f32) (x1 : Vec Ideal S144x128 .f32) (x2 : Vec Ideal S1x128 .f32)
    (x3 : Vec Ideal S128x64 .f32) (x4 : Vec Ideal S1x64 .f32) (x5 : Vec Ideal S64x128 .f32) (x6 : Vec Ideal S1x128 .f32)
    (E : Arr 800000 144) (r : Fin 4000) (q : Fin 128) (e : Fin 800000) (h0 : ∀ k : Fin 144, x0 (ix2 r k) = E (ix2 e k)) :
    k4_pay1 x0 x1 x2 x3 x4 x5 x6 (ix2 r q) = mlpOut E x1 x2 x3 x4 x5 x6 e q := by
  have hz0 : (FloatOps.ofBits (F := Ideal) FTy.f32 0x00000000#32 : Ideal .f32) = 0 := Ideal.ofBits_zero_f32
  unfold k4_pay1 mlpOut mlpZ2 mlpZ1
  simp only [shapeCast_self, ← h0]
  rw [addf_apply, mm_apply dot_S4000x64_S64x128_S4000x128_1_0_0_1_n_n rfl, broadcastTo_1b_ab_apply]
  refine congrArg (· + x6 (ix2 0 q)) (Finset.sum_congr rfl fun k _ => ?_)
  rw [truncf_apply, truncf_apply, maximumf_apply, broadcast_apply, addf_apply, mm_apply dot_S4000x128_S128x64_S4000x64_1_0_0_1_n_n rfl, broadcastTo_1b_ab_apply, hz0]
  refine congrArg (fun z => max (z + x4 (ix2 0 k)) 0 * x5 (ix2 k q)) (Finset.sum_congr rfl fun k2 _ => ?_)
  rw [truncf_apply, truncf_apply, maximumf_apply, broadcast_apply, addf_apply, mm_apply dot_S4000x144_S144x128_S4000x128_1_0_0_1_n_n rfl, broadcastTo_1b_ab_apply]
  rfl

end V4

variable (V : (c : Dev nD) → (b : Ref sig .tc) → Buf (Elt Ideal) ((c : Thread nD τ).loc b))

theorem hz4 : (![0, 0] : Fin 2 → Nat) = fun _ => 0 := funext fun a => by fin_cases a <;> rfl

theorem iblk4_whole (c : Dev nD) (t : Fin cfg4.N) :
    (iblk4 V c 1 t : Vec Ideal S144x128 .f32) = V c main_v62 ∧ (iblk4 V c 2 t : Vec Ideal S1x128 .f32) = V c main_v63
    ∧ (iblk4 V c 3 t : Vec Ideal S128x64 .f32) = V c main_v64 ∧ (iblk4 V c 4 t : Vec Ideal S1x64 .f32) = V c main_v65
    ∧ (iblk4 V c 5 t : Vec Ideal S64x128 .f32) = V c main_v67 ∧ (iblk4 V c 6 t : Vec Ideal S1x128 .f32) = V c main_v69 := by
  refine ⟨?_, ?_, ?_, ?_, ?_, ?_⟩ <;>
    exact funext fun y => congrArg (V c _) (funext fun a => Fin.ext (by
      fin_cases a <;> exact Window.rect_emb_val_of_index_zero _ t _ rfl y))

-- The index map returns the point's number reduced modulo 2^32, and there are only 200 points.
theorem idx4_7 (t : Fin cfg4.N) : win4_7.index t 0 = t.val := by
  have h : t.val < 200 := N_4 ▸ t.isLt
  show (BitVec.ofNat 32 (t.val / 1 % 200)).toNat = t.val
  rw [BitVec.toNat_ofNat]; omega

theorem value4 (c : Dev nD) (e : Fin 800000) (q : Fin 128) :
    (dat4 (F := Ideal) V c).arrAt 7 cfg4.N (ix2 e q)
      = mlpOut (N := 800000) (D := 144) (H1 := 128) (H2 := 64) (O := 128) (V c main_v61) (V c main_v62) (V c main_v63) (V c main_v64) (V c main_v65) (V c main_v67) (V c main_v69) e q := by
  refine congrFun ((dat4 (F := Ideal) V c).arrAt_eq_of_cover 7 (fun i : S800000x128.Idx => mlpOut _ _ _ _ _ _ _ (i 0) (i 1)) (fun t _ => ?_) fun i => ?_) (ix2 e q)
  · obtain ⟨h1, h2, h3, h4, h5, h6⟩ := iblk4_whole V c t
    show (cfg4.win 7).cut (grid4.coords t) ((dat4 (F := Ideal) V c).after 7 t) = _
    rw [after4_7]
    unfold out4_7
    rw [View.canon_unit_zero hz4]
    simp only [View.ld_unit_zero (S := S4000x144) hz4, View.ld_unit_zero (S := S144x128) hz4, View.ld_unit_zero (S := S1x128) hz4,
      View.ld_unit_zero (S := S128x64) hz4, View.ld_unit_zero (S := S1x64) hz4, View.ld_unit_zero (S := S64x128) hz4]
    rw [h1, h2, h3, h4, h5, h6]
    funext j
    have e1 : ((cfg4.win 7).blk t).view.emb j 1 = j 1 := Fin.ext (Window.rect_emb_val_of_index_zero win4_7 t 1 rfl j)
    show k4_pay1 (F := Ideal) _ _ _ _ _ _ _ j = mlpOut _ _ _ _ _ _ _ (((cfg4.win 7).blk t).view.emb j 0) (((cfg4.win 7).blk t).view.emb j 1)
    rw [e1]
    refine (congrArg _ (eq_ix2 j)).trans (V4.pay_eq_mlpOut _ _ _ _ _ _ _ _ (j 0) (j 1) _ fun k => ?_)
    show V c main_v61 (((cfg4.win 0).blk t).view.emb (ix2 (j 0) k)) = V c main_v61 (ix2 (((cfg4.win 7).blk t).view.emb j 0) k)
    refine congrArg (V c main_v61) (funext fun a => Fin.ext ?_)
    fin_cases a
    · rfl
    · exact Window.rect_emb_val_of_index_zero win4_0 t 1 rfl _
  · have hN : grid4.N = 200 := N_4
    have hi0 : (i 0).val < 800000 := (i 0).isLt
    have hi1 : (i 1).val < 128 := (i 1).isLt
    obtain ⟨t, ht⟩ : ∃ t : Fin cfg4.N, t.val = (i 0).val / 4000 := ⟨⟨(i 0).val / 4000, by show _ < grid4.N; omega⟩, rfl⟩
    refine ⟨t, flush4_7 t, ?_⟩
    show i ∈ ((View.whole main_v70).slice (win4_7.rect t)).set
    rw [View.set_slice_whole, Rect.mem_set_unit]
    intro a
    fin_cases a
    · show win4_7.index t 0 * 4000 ≤ (i 0).val ∧ (i 0).val < win4_7.index t 0 * 4000 + 4000
      rw [idx4_7 t]; omega
    · show 0 * 128 ≤ (i 1).val ∧ (i 1).val < 0 * 128 + 128
      omega

end Cert.KernelIdeal.Hand

end
-- ==== Proof.Br.Final.lean ====
import proofs.«431426_j58171037057327_1_alg».proof.Proof.Br.SegE
import proofs.«431426_j58171037057327_1_alg».proof.Proof.KI.V4
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Hand Cert.Spec Cert.ReferenceIdeal.Read
open Idealize.ShloMosaic Idealize.ShloMosaic.TcCoe Idealize.ShloMosaic.ValueIdx
open Idealize.SL Idealize.SL.Sem
open scoped BigOperators

-- The third layer at an output column reads that column of the weights and of the bias only.
theorem mlpOut_col {N D H1 H2 O O' : Nat} (E : Arr N D) (W1 : Arr D H1) (b1 : Arr 1 H1) (W2 : Arr H1 H2) (b2 : Arr 1 H2)
    (W3 : Arr H2 O) (b3 : Arr 1 O) (W3' : Arr H2 O') (b3' : Arr 1 O') (e : Fin N) (q : Fin O) (q' : Fin O')
    (hW : ∀ k : Fin H2, W3 (ix2 k q) = W3' (ix2 k q')) (hb : b3 (ix2 0 q) = b3' (ix2 0 q')) :
    mlpOut E W1 b1 W2 b2 W3 b3 e q = mlpOut E W1 b1 W2 b2 W3' b3' e q' := by
  simp only [mlpOut, hW, hb]

variable (m : (ℓ : Loc nD τ sig) → Buf (Elt Ideal) ℓ) (c : Dev nD)

theorem final_read : V20 m (outs m) c main_v71
    = extractStridedSlice S800000x2 ![0, 0] (outs m 19 main_v70 c) slices_S800000x128_S800000x2_0_0 := by
  show StableHlo.after hostOps5 (V19 m (outs m) c) (Proc.devRef .tc main_v71) = _
  after_results
  show extractStridedSlice S800000x2 ![0, 0] (Function.update (V18 m (outs m) c) (Proc.devRef .tc main_v70) (outs m 19 main_v70 c) (Proc.devRef .tc main_v70)) _ = _
  rw [Function.update_self]

theorem final_read_apply (e : Fin 800000) (q : Fin 2) (hq : q.val < 128) :
    (V20 m (outs m) c main_v71 : (⟨S800000x2, .f32⟩ : BufTy).Contents (Elt Ideal)) (ix2 e q)
      = (outs m 19 main_v70 c : (⟨S800000x128, .f32⟩ : BufTy).Contents (Elt Ideal)) (ix2 e ⟨q.val, hq⟩) := by
  rw [final_read]
  exact extractStridedSlice_apply ![0, 0] _ slices_S800000x128_S800000x2_0_0 (ix2 e q) (ix2 e ⟨q.val, hq⟩) (fun a => match a with
    | ⟨0, _⟩ => by show e.val = 0 + e.val; omega
    | ⟨1, _⟩ => by show q.val = 0 + q.val; omega)

theorem ref_z1 (e : Fin 800000) (j : Fin 128) :
    val_main_v130 (a0 m c) (a1 m c) (a2 m c) (a3 m c) (a4 m c) (a5 m c) (a6 m c) (a7 m c) (a8 m c) (a9 m c) (a10 m c) (a11 m c) (a12 m c) (a13 m c) (a14 m c) (ix2 e j) = mlpZ1 (val_main_v124 (a0 m c) (a1 m c) (a2 m c) (a3 m c) (a4 m c) (a5 m c) (a6 m c) (a7 m c) (a8 m c) (a9 m c) (a10 m c) (a11 m c) (a12 m c)) (val_main_v125 (a13 m c)) (val_main_v127 (a14 m c)) e j := by
  rw [val_main_v130_apply, val_main_v129_apply, val_main_v126_apply, val_main_v128_apply, val_main_call2_v0_apply, val_main_call2_cst_apply,
    Ideal.ofBits_def, Ideal.ofBits_zero_f32]
  simp only [show ∀ k : Fin 144, lidx_main_v126 (ix2 e j) k = ix2 e k from fun _ => eq_ix2 _,
    show ∀ k : Fin 144, ridx_main_v126 (ix2 e j) k = ix2 k j from fun _ => eq_ix2 _,
    show idx_main_v128 (ix2 e j) = ix2 0 j from eq_ix2 _]
  rfl

theorem ref_z2 (e : Fin 800000) (j : Fin 64) :
    val_main_v136 (a0 m c) (a1 m c) (a2 m c) (a3 m c) (a4 m c) (a5 m c) (a6 m c) (a7 m c) (a8 m c) (a9 m c) (a10 m c) (a11 m c) (a12 m c) (a13 m c) (a14 m c) (a15 m c) (a16 m c) (ix2 e j) = mlpZ2 (val_main_v124 (a0 m c) (a1 m c) (a2 m c) (a3 m c) (a4 m c) (a5 m c) (a6 m c) (a7 m c) (a8 m c) (a9 m c) (a10 m c) (a11 m c) (a12 m c)) (val_main_v125 (a13 m c)) (val_main_v127 (a14 m c)) (val_main_v131 (a15 m c)) (val_main_v133 (a16 m c)) e j := by
  rw [val_main_v136_apply, val_main_v135_apply, val_main_v132_apply, val_main_v134_apply, val_main_call3_v0_apply, val_main_call3_cst_apply,
    Ideal.ofBits_def, Ideal.ofBits_zero_f32]
  simp only [show ∀ k : Fin 128, lidx_main_v132 (ix2 e j) k = ix2 e k from fun _ => eq_ix2 _,
    show ∀ k : Fin 128, ridx_main_v132 (ix2 e j) k = ix2 k j from fun _ => eq_ix2 _,
    show idx_main_v134 (ix2 e j) = ix2 0 j from eq_ix2 _, ref_z1]
  rfl

-- The zero padding of the third layer's weights and bias adds nothing to the first two output columns, which the closing slice keeps.
theorem result_eq (h : Rng m c) (h58 : outs m 11 main_v58 c = val_main_v109 (a0 m c) (a1 m c) (a3 m c) (a4 m c) (a5 m c) (a6 m c) (a7 m c) (a8 m c) (a9 m c) (a10 m c) (a11 m c) (a12 m c)) :
    V20 m (outs m) c main_v71 = val_main_v141 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  show (V20 m (outs m) c main_v71 : (⟨S800000x2, .f32⟩ : BufTy).Contents (Elt Ideal)) = _
  funext i
  obtain ⟨e, q, rfl⟩ : ∃ (e : Fin 800000) (q : Fin 2), i = ix2 e q := ⟨i 0, i 1, eq_ix2 i⟩
  have hq : q.val < 128 := by have := q.isLt; omega
  rw [val_main_v141_apply, val_main_v138_apply, val_main_v140_apply]
  simp only [show ∀ k : Fin 64, lidx_main_v138 (ix2 e q) k = ix2 e k from fun _ => eq_ix2 _,
    show ∀ k : Fin 64, ridx_main_v138 (ix2 e q) k = ix2 k q from fun _ => eq_ix2 _,
    show idx_main_v140 (ix2 e q) = ix2 0 q from eq_ix2 _, ref_z2, Ideal.addf_def]
  refine (final_read_apply m c e q hq).trans ((congrFun (outs_19 m c) _).trans ((value4 (fun c b => V18 m (outs m) c b) c e ⟨q.val, hq⟩).trans ?_))
  rw [segE_v61 m c h58 h, segE_v62 m c, segE_v63 m c, segE_v64 m c, segE_v65 m c]
  refine (mlpOut_col _ _ _ _ _ _ _ (val_main_v137 (a17 m c) : Arr 64 2) (val_main_v139 (a18 m c) : Arr 1 2) e ⟨q.val, hq⟩ q (fun k => ?_) ?_).trans rfl
  · rw [segE_v67 m c k ⟨q.val, hq⟩, dif_pos q.isLt]
  · rw [segE_v69 m c ⟨q.val, hq⟩, dif_pos q.isLt, val_main_v139_apply]
    exact congrArg (a18 m c) (eq_ix1 _).symm

end Cert.Bridge

end
-- ==== Proof.lean ====
/- A two-layer mean-aggregation graph convolution with batch normalisation and an edge classifier, as five kernel
   regions among host operations, against the same computation in plain array operations.  Over the extended reals a
   tiled matrix product onto a zero accumulator is the whole product, a sum does not depend on its grouping, and the
   guarded gather is the plain gather once every edge index is a node number (the precondition's last conjuncts). -/
import proofs.«431426_j58171037057327_1_alg».proof.Defs
import proofs.«431426_j58171037057327_1_alg».proof.Proof.Gen.Kernel
import proofs.«431426_j58171037057327_1_alg».proof.Proof.Gen.KernelIdeal
import proofs.«431426_j58171037057327_1_alg».proof.Proof.Gen.ReferenceIdeal
import proofs.«431426_j58171037057327_1_alg».proof.Proof.Gen.Pre_finite_inputs
import proofs.«431426_j58171037057327_1_alg».proof.Proof.Gen.ReferenceIdeal.Run
import proofs.«431426_j58171037057327_1_alg».proof.Proof.Gen.ReferenceIdeal.Read
import proofs.«431426_j58171037057327_1_alg».proof.Proof.K.Regs
import proofs.«431426_j58171037057327_1_alg».proof.Proof.KI.Run
import proofs.«431426_j58171037057327_1_alg».proof.Proof.IdxPre
import proofs.«431426_j58171037057327_1_alg».proof.Proof.Br.Reg0
import proofs.«431426_j58171037057327_1_alg».proof.Proof.Br.Reg1
import proofs.«431426_j58171037057327_1_alg».proof.Proof.Br.Reg2
import proofs.«431426_j58171037057327_1_alg».proof.Proof.Br.Reg3
import proofs.«431426_j58171037057327_1_alg».proof.Proof.Br.Final
import Idealize.ShloMosaic.Adequacy
import Idealize.ShloMosaic.Init

set_option maxRecDepth 16384

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Hand.frame m ρ, fun m ρ _ => Cert.KernelIdeal.Hand.frame m ρ,
    fun m ρ _ => (θ_run Cert.ReferenceIdeal.defs _ _).mono (fun _ h c => (h c).2) (Cert.ReferenceIdeal.Value.run (F := Ideal) m ρ),
    trivial, ?_⟩
  intro m g m' g' hpre hagree
  refine ⟨fun c => Cert.KernelIdeal.Gen.V20 m (Cert.KernelIdeal.Hand.outs m) c Cert.KernelIdeal.main_v71,
    Cert.KernelIdeal.Hand.run_result m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v141_eq]
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  have h : Cert.Bridge.Rng m c := fun j => Cert.IdxPre.idx_range _ _ _ _ _ _ _ _ _ _ _ _ _ _ _ _ _ _ _ (hpre c) j
  exact (Cert.Bridge.result_eq m c h (Cert.Bridge.reg3 m c (Cert.Bridge.reg2 m c h
    (Cert.Bridge.reg1 m c (Cert.Bridge.reg0 m c h))))).symm⟩

end Cert.Proof

end
